-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S384x128 .f32) (main_arg9 : FVec F S384 .f32) (main_arg10 : FVec F S128 .f32) (main_arg11 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384 .f32 := Host.absf main_arg9
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S1 .f32) (main_arg6 : FVec F S384x128 .f32) (main_arg7 : FVec F S384 .f32) (main_arg8 : FVec F S384x128 .f32) (main_arg9 : FVec F S384 .f32) (main_arg10 : FVec F S128 .f32) (main_arg11 : FVec F S128 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S256x1 .f32) (main_arg5 : FVec F S1 .f32) (main_arg6 : FVec F S384x128 .f32) (main_arg7 : FVec F S384 .f32) (main_arg8 : FVec F S384x128 .f32) (main_arg9 : FVec F S384 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x1 .f32 := Host.absf main_arg4
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S384x128 : Shape := ⟨2, ![384, 128]⟩
abbrev S384 : Shape := ⟨1, ![384]⟩
abbrev S1x800000 : Shape := ⟨2, ![1, 800000]⟩
abbrev S800000 : Shape := ⟨1, ![800000]⟩
abbrev S128x1 : Shape := ⟨2, ![128, 1]⟩
abbrev S128x130 : Shape := ⟨2, ![128, 130]⟩
abbrev S_ : Shape := ⟨0, ![]⟩
abbrev S2 : Shape := ⟨1, ![2]⟩
abbrev S130 : Shape := ⟨1, ![130]⟩
abbrev S50000x130 : Shape := ⟨2, ![50000, 130]⟩
abbrev S5000x128 : Shape := ⟨2, ![5000, 128]⟩
abbrev S5000x130 : Shape := ⟨2, ![5000, 130]⟩
abbrev S1x130 : Shape := ⟨2, ![1, 130]⟩
abbrev S50000x1 : Shape := ⟨2, ![50000, 1]⟩
abbrev S50000 : Shape := ⟨1, ![50000]⟩
abbrev S800000x1 : Shape := ⟨2, ![800000, 1]⟩
abbrev S800000x128 : Shape := ⟨2, ![800000, 128]⟩
abbrev S128x384 : Shape := ⟨2, ![128, 384]⟩
abbrev S1x128 : Shape := ⟨2, ![1, 128]⟩
abbrev S5000x384 : Shape := ⟨2, ![5000, 384]⟩
abbrev S1x384 : Shape := ⟨2, ![1, 384]⟩

abbrev nBuf : Space → Nat
  | .hbm => 91
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S256x1, .f32⟩
  | .hbm, ⟨5, _⟩ => ⟨S1, .f32⟩
  | .hbm, ⟨6, _⟩ => ⟨S384x128, .f32⟩
  | .hbm, ⟨7, _⟩ => ⟨S384, .f32⟩
  | .hbm, ⟨8, _⟩ => ⟨S384x128, .f32⟩
  | .hbm, ⟨9, _⟩ => ⟨S384, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S128x1, .f32⟩
  | .hbm, ⟨17, _⟩ => ⟨S128, .f32⟩
  | .hbm, ⟨18, _⟩ => ⟨S128x1, .f32⟩
  | .hbm, ⟨19, _⟩ => ⟨S128, .f32⟩
  | .hbm, ⟨20, _⟩ => ⟨S128x1, .f32⟩
  | .hbm, ⟨21, _⟩ => ⟨S128x1, .f32⟩
  | .hbm, ⟨22, _⟩ => ⟨S128x130, .f32⟩
  | .hbm, ⟨23, _⟩ => ⟨S_, .f32⟩
  | .hbm, ⟨24, _⟩ => ⟨S2, .f32⟩
  | .hbm, ⟨25, _⟩ => ⟨S130, .f32⟩
  | .hbm, ⟨26, _⟩ => ⟨S50000x130, .f32⟩
  | .hbm, ⟨27, _⟩ => ⟨S50000x128, .f32⟩
  | .hbm, ⟨28, _⟩ => ⟨S50000x1, .f32⟩
  | .hbm, ⟨29, _⟩ => ⟨S50000, .f32⟩
  | .hbm, ⟨30, _⟩ => ⟨S50000x1, .f32⟩
  | .hbm, ⟨31, _⟩ => ⟨S50000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000, .f32⟩
  | .hbm, ⟨59, _⟩ => ⟨S800000, .f32⟩
  | .hbm, ⟨60, _⟩ => ⟨S800000, .f32⟩
  | .hbm, ⟨61, _⟩ => ⟨S800000, .f32⟩
  | .hbm, ⟨62, _⟩ => ⟨S800000, .f32⟩
  | .hbm, ⟨63, _⟩ => ⟨S800000, .f32⟩
  | .hbm, ⟨64, _⟩ => ⟨S_, .f32⟩
  | .hbm, ⟨65, _⟩ => ⟨S800000, .f32⟩
  | .hbm, ⟨66, _⟩ => ⟨S800000, .f32⟩
  | .hbm, ⟨67, _⟩ => ⟨S_, .f32⟩
  | .hbm, ⟨68, _⟩ => ⟨S800000, .f32⟩
  | .hbm, ⟨69, _⟩ => ⟨S800000, .f32⟩
  | .hbm, ⟨70, _⟩ => ⟨S800000x1, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S128x384, .f32⟩
  | .hbm, ⟨78, _⟩ => ⟨S128x384, .f32⟩
  | .hbm, ⟨79, _⟩ => ⟨S50000x128, .f32⟩
  | .hbm, ⟨80, _⟩ => ⟨S1x128, .f32⟩
  | .hbm, ⟨81, _⟩ => ⟨S1x128, .f32⟩
  | .hbm, ⟨82, _⟩ => ⟨S_, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x130, .f32⟩
  | .local _ .vmem, ⟨3, _⟩ => ⟨S130, .f32⟩
  | .local _ .vmem, ⟨4, _⟩ => ⟨S5000x130, .f32⟩
  | .local _ .vmem, ⟨5, _⟩ => ⟨S5000x130, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x384, .f32⟩
  | .local _ .vmem, ⟨11, _⟩ => ⟨S384, .f32⟩
  | .local _ .vmem, ⟨12, _⟩ => ⟨S128x384, .f32⟩
  | .local _ .vmem, ⟨13, _⟩ => ⟨S384, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S128, .f32⟩
  | .local _ .vmem, ⟨23, _⟩ => ⟨S128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_1 : Ref sig .tc := ⟨.hbm, 41, rfl⟩
abbrev main_v26 : Ref sig .tc := ⟨.hbm, 42, rfl⟩
abbrev main_v27 : Ref sig .tc := ⟨.hbm, 43, rfl⟩
abbrev main_c_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_3 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57_0 : Ref sig .tc := ⟨.hbm, 79, rfl⟩
abbrev main_v57_1 : Ref sig .tc := ⟨.hbm, 80, rfl⟩
abbrev main_v57_2 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x130 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S130 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x130 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x1_S128x1_0_0 : S256x1.Slices ![0, 0] S128x1
  shapeCasts_S128x1_S128 : S128x1.ShapeCasts S128
  slices_S256x1_S128x1_128_0 : S256x1.Slices ![128, 0] S128x1
  bcast_S128_S128x1_0 : S128.BroadcastsInDim S128x1 (![0] : Fin 1 → Fin S128x1.rank)
  concatenates_S128x128_S128x1_S128x1_S128x130_d1 : Shape.Concatenates [S128x128, S128x1, S128x1] S128x130 1
  bcast_S_S2 : S_.BroadcastsInDim S2 (![] : Fin 0 → Fin S2.rank)
  concatenates_S128_S2_S130_d0 : Shape.Concatenates [S128, S2] S130 0
  inb_S5000x128_S5000x128_0_0 : ∀ a, (![0, 0] : Fin 2 → Nat) a + S5000x128.size a ≤ S5000x128.size a
  h_S5000x128 : 0 < S5000x128.numel
  inb_S128x130_S128x130_0_0 : ∀ a, (![0, 0] : Fin 2 → Nat) a + S128x130.size a ≤ S128x130.size a
  h_S128x130 : 0 < S128x130.numel
  shapeCasts_S128x130_S128x130 : S128x130.ShapeCasts S128x130
  inb_S130_S130_0 : ∀ a, (![0] : Fin 1 → Nat) a + S130.size a ≤ S130.size a
  h_S130 : 0 < S130.numel
  shapeCasts_S130_S130 : S130.ShapeCasts S130
  shapeCasts_S130_S1x130 : S130.ShapeCasts S1x130
  broadcasts_S1x130_S5000x130 : S1x130.Broadcasts S5000x130
  inb_S5000x130_S5000x130_0_0 : ∀ a, (![0, 0] : Fin 2 → Nat) a + S5000x130.size a ≤ S5000x130.size a
  h_S5000x130 : 0 < S5000x130.numel
  slices_S50000x130_S50000x128_0_0 : S50000x130.Slices ![0, 0] S50000x128
  slices_S50000x130_S50000x1_0_128 : S50000x130.Slices ![0, 128] S50000x1
  shapeCasts_S50000x1_S50000 : S50000x1.ShapeCasts S50000
  slices_S50000x130_S50000x1_0_129 : S50000x130.Slices ![0, 129] S50000x1
  bcast_S_S800000 : S_.BroadcastsInDim S800000 (![] : Fin 0 → Fin S800000.rank)
  bcast_S800000_S800000x1_0 : S800000.BroadcastsInDim S800000x1 (![0] : Fin 1 → Fin S800000x1.rank)
  bcast_S1_S800000_0 : S1.BroadcastsInDim S800000 (![0] : Fin 1 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S384x128_S128x384_1_0 : S384x128.Transposes [1, 0] S128x384
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S1x384 : S384.ShapeCasts S1x384
  broadcasts_S1x384_S5000x384 : S1x384.Broadcasts S5000x384
  slices_S5000x384_o0_0_S5000x128 : S5000x384.Slices ![0, 0] S5000x128
  slices_S5000x384_o0_128_S5000x128 : S5000x384.Slices ![0, 128] S5000x128
  slices_S5000x384_o0_256_S5000x128 : S5000x384.Slices ![0, 256] S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  inb_S128_S128_0 : ∀ a, (![0] : Fin 1 → Nat) a + S128.size a ≤ S128.size a
  h_S128 : 0 < S128.numel
  broadcasts_S1x128_S5000x128 : S1x128.Broadcasts S5000x128
  dot_S5000x128_S128x130_S5000x130_1_0_0_1_n_n_wf : DotDims.WF S5000x128 S128x130 S5000x130 [1] [0] [0] [1] [] []
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S5000x128_S128x384_S5000x384_1_0_0_1_n_n_wf : DotDims.WF S5000x128 S128x384 S5000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x130.size a ≤ S128x130.size a
  hwx0_1 : ∀ i : grid0.Coords, EltTy.bits .f32 = 32 ∨ (Rect.block (s := S128x130) S128x130.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S130.size a ≤ S130.size a
  hwx0_2 : ∀ i : grid0.Coords, EltTy.bits .f32 = 32 ∨ (Rect.block (s := S130) S130.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x130.size a ≤ S50000x130.size a
  hwx0_3 : ∀ i : grid0.Coords, EltTy.bits .f32 = 32 ∨ (Rect.block (s := S50000x130) S5000x130.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x130_S5000x130_1_0_0_1_n_n : DotDims S5000x128 S128x130 S5000x130 where
  lhsContracting := [1]
  rhsContracting := [0]
  lhsNonContracting := [0]
  rhsNonContracting := [1]
  lhsBatch := []
  rhsBatch := []
  wf := dot_S5000x128_S128x130_S5000x130_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x130.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S130.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x130.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v55) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v57_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v57_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S384x128 : Shape := ⟨2, ![384, 128]⟩
abbrev S384 : Shape := ⟨1, ![384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x1 : Shape := ⟨2, ![128, 1]⟩
abbrev S1x1 : Shape := ⟨2, ![1, 1]⟩
abbrev S1x128 : Shape := ⟨2, ![1, 128]⟩
abbrev S128x384 : Shape := ⟨2, ![128, 384]⟩
abbrev S50000x384 : Shape := ⟨2, ![50000, 384]⟩
abbrev S1x384 : Shape := ⟨2, ![1, 384]⟩

abbrev nBuf : Space → Nat
  | .hbm => 147
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S256x1, .f32⟩
  | 5 => ⟨S1, .f32⟩
  | 6 => ⟨S384x128, .f32⟩
  | 7 => ⟨S384, .f32⟩
  | 8 => ⟨S384x128, .f32⟩
  | 9 => ⟨S384, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S128x1, .f32⟩
  | 35 => ⟨S800000x1, .f32⟩
  | 36 => ⟨S128x1, .f32⟩
  | 37 => ⟨S800000x1, .f32⟩
  | 38 => ⟨S800000x1, .f32⟩
  | 39 => ⟨S1x1, .f32⟩
  | 40 => ⟨S800000x1, .f32⟩
  | 41 => ⟨S800000x1, .f32⟩
  | 42 => ⟨S800000x1, .f32⟩
  | 43 => ⟨S800000x1, .f32⟩
  | 44 => ⟨S_, .f32⟩
  | 45 => ⟨S800000x1, .f32⟩
  | 46 => ⟨S800000x1, .f32⟩
  | 47 => ⟨S_, .f32⟩
  | 48 => ⟨S800000x1, .f32⟩
  | 49 => ⟨S800000x1, .f32⟩
  | 50 => ⟨S800000x128, .f32⟩
  | 51 => ⟨S1x128, .f32⟩
  | 52 => ⟨S800000x128, .f32⟩
  | 53 => ⟨S800000x128, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S128x384, .f32⟩
  | 61 => ⟨S50000x384, .f32⟩
  | 62 => ⟨S1x384, .f32⟩
  | 63 => ⟨S50000x384, .f32⟩
  | 64 => ⟨S50000x384, .f32⟩
  | 65 => ⟨S128x384, .f32⟩
  | 66 => ⟨S50000x384, .f32⟩
  | 67 => ⟨S1x384, .f32⟩
  | 68 => ⟨S50000x384, .f32⟩
  | 69 => ⟨S50000x384, .f32⟩
  | 70 => ⟨S50000x128, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_cst_6 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_cst_8 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_9 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_cst_11 : Ref sig .tc := ⟨.hbm, 105, rfl⟩
abbrev main_v80 : Ref sig .tc := ⟨.hbm, 106, rfl⟩
abbrev main_v81 : Ref sig .tc := ⟨.hbm, 107, rfl⟩
abbrev main_c_12 : Ref sig .tc := ⟨.hbm, 108, rfl⟩
abbrev main_call0_cst : Ref sig .tc := ⟨.hbm, 109, rfl⟩
abbrev main_call0_v0 : Ref sig .tc := ⟨.hbm, 110, rfl⟩
abbrev main_call0_v1 : Ref sig .tc := ⟨.hbm, 111, rfl⟩
abbrev main_call0_cst_0 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_v5 : Ref sig .tc := ⟨.hbm, 116, rfl⟩
abbrev main_call0_v6 : Ref sig .tc := ⟨.hbm, 117, rfl⟩
abbrev main_call0_v7 : Ref sig .tc := ⟨.hbm, 118, rfl⟩
abbrev main_call0_cst_1 : Ref sig .tc := ⟨.hbm, 119, rfl⟩
abbrev main_call0_v8 : Ref sig .tc := ⟨.hbm, 120, rfl⟩
abbrev main_call0_cst_2 : Ref sig .tc := ⟨.hbm, 121, rfl⟩
abbrev main_call0_v9 : Ref sig .tc := ⟨.hbm, 122, rfl⟩
abbrev main_call0_v10 : Ref sig .tc := ⟨.hbm, 123, rfl⟩
abbrev main_call0_v11 : Ref sig .tc := ⟨.hbm, 124, rfl⟩
abbrev main_call0_cst_3 : Ref sig .tc := ⟨.hbm, 125, rfl⟩
abbrev main_call0_v12 : Ref sig .tc := ⟨.hbm, 126, rfl⟩
abbrev main_call0_cst_4 : Ref sig .tc := ⟨.hbm, 127, rfl⟩
abbrev main_call0_call0_v0 : Ref sig .tc := ⟨.hbm, 128, rfl⟩
abbrev main_call0_call0_v1 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_13 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x1_S128x1_0_0 : S256x1.Slices ![0, 0] S128x1
  slices_S256x1_S128x1_128_0 : S256x1.Slices ![128, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x1_S800000x1_1_0_0_1_n_n_wf : DotDims.WF S800000x128 S128x1 S800000x1 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.K.Reg0.lean ====
import proofs.«415257_j29506425324200_3_alg».proof.Proof.Gen.Kernel.Launch
import proofs.«415257_j29506425324200_3_alg».proof.Proof.Gen.Kernel.Skeleton
import proofs.«415257_j29506425324200_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x130 := Rect.unit (s := S128x130) ![0, 0] S128x130.size inb_S128x130_S128x130_0_0
abbrev r0_2 : Rect S130 := Rect.unit (s := S130) ![0] S130.size inb_S130_S130_0
abbrev r0_3 : Rect S5000x130 := Rect.unit (s := S5000x130) ![0, 0] S5000x130.size inb_S5000x130_S5000x130_0_0

def out0_3 (x0 : Vec F S5000x128 .f32) (x1 : Vec F S128x130 .f32) (x2 : Vec F S130 .f32) : Vec F S5000x130 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [show ∀ d, (dat0 V c).before 0 t d = iblk0 V c 0 t from fun d => ((dat0 V c).before_in_eq_fetched 0 rfl (fun _ => rfl) (fun _ _ _ => rfl) (fun _ => rfl) t d).trans rfl,
    show ∀ d, (dat0 V c).before 1 t d = iblk0 V c 1 t from fun d => ((dat0 V c).before_in_eq_fetched 1 rfl (fun _ => rfl) (fun _ _ _ => rfl) (fun _ => rfl) t d).trans rfl,
    show ∀ d, (dat0 V c).before 2 t d = iblk0 V c 2 t from fun d => ((dat0 V c).before_in_eq_fetched 2 rfl (fun _ => rfl) (fun _ _ _ => rfl) (fun _ => rfl) t d).trans rfl]
  rw [show (dat0 V c).owesAt () t.succ = (dat0 V c).owesAt () t.castSucc from rfl]
  dsimp only [dat0]
  generalize iblk0 V c 0 t = x0, iblk0 V c 1 t = x1, iblk0 V c 2 t = x2
  unfold bodyAt0
  simp only [cc0__precompute_kernel_eq_skeleton]; unfold cc0__precompute_kernel_skel owns
  iintro ⟨HΦ, Ho, ⟨%d0, %f0, %hf0, H0⟩, ⟨%d1, %f1, %hf1, H1⟩, ⟨%d2, %f2, %hf2, H2⟩, ⟨%d3, %f3, -, H3⟩⟩
  subst hf0 hf1 hf2
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S5000x130.size (by rfl))

end Region0

end Cert.Kernel.Fr

end
-- ==== Proof.K.Reg1Runs.lean ====
import proofs.«415257_j29506425324200_3_alg».proof.Proof.Gen.Kernel.Launch
import proofs.«415257_j29506425324200_3_alg».proof.Proof.Gen.Kernel.Skeleton
import proofs.«415257_j29506425324200_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic

variable {F : FTy → Type} [FloatOps F]

/-- Window `w`'s block at point `t` of the arrays `V`. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The body's one branch condition (it guards the zeroing of the two running sums), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S384 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x384 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S384 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)

end Cert.Kernel.Fr

end
-- ==== Proof.K.Reg1RunA.lean ====
import proofs.«415257_j29506425324200_3_alg».proof.Proof.K.Reg1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)

set_option maxHeartbeats 1000000 in
/-- The pieces the body's stores leave in each output's buffer where the branch is taken (the two running sums are zeroed before they are read), with the body's run from whole buffers to them. -/
def kernelRun1_A (hc0 : cond1_0 i) :
    Σ' (L6 : List (View.Piece (Elt F) S5000x128 .f32)), Σ' (L7 : List (View.Piece (Elt F) S1x128 .f32)),
    { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1__gru_bn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__gru_bn_kernel_eq_skeleton]; unfold cc1__gru_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    iexists _; iexact H8

end Cert.Kernel.Fr

end
-- ==== Proof.K.Reg1RunB.lean ====
import proofs.«415257_j29506425324200_3_alg».proof.Proof.K.Reg1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)
  (xo7 xo8 : Vec F S1x128 .f32)

set_option maxHeartbeats 1000000 in
/-- The same where the branch is not taken: the two running sums are read as the point before left them, `xo7` and `xo8`. -/
def kernelRun1_B (hc0 : ¬cond1_0 i) :
    Σ' (L6 : List (View.Piece (Elt F) S5000x128 .f32)), Σ' (L7 : List (View.Piece (Elt F) S1x128 .f32)),
    { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1__gru_bn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__gru_bn_kernel_eq_skeleton]; unfold cc1__gru_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    iexists _; iexact H8

end Cert.Kernel.Fr

end
-- ==== Proof.K.Reg1.lean ====
import proofs.«415257_j29506425324200_3_alg».proof.Proof.K.Reg1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point
variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)

/-- What the body leaves in the three outputs' buffers where the branch is taken: the canonical reading of each output's pieces. -/
def out1_A (hc0 : cond1_0 i) : Vec F S5000x128 .f32 × Vec F S1x128 .f32 × Vec F S1x128 .f32 :=
  let r := kernelRun1_A c i arg1 harg1 arg2 harg2 arg3 harg3 arg4 harg4 arg5 harg5 arg6 harg6 arg7 harg7 arg8 harg8 arg9 harg9 x0 x1 x2 x3 x4 x5 hc0
  (View.canon r.1, View.canon r.2.1, View.canon r.2.2.1)

variable (xo7 xo8 : Vec F S1x128 .f32)

/-- The same where the branch is not taken, over the running sums `xo7` and `xo8`. -/
def out1_B (hc0 : ¬cond1_0 i) : Vec F S5000x128 .f32 × Vec F S1x128 .f32 × Vec F S1x128 .f32 :=
  let r := kernelRun1_B c i arg1 harg1 arg2 harg2 arg3 harg3 arg4 harg4 arg5 harg5 arg6 harg6 arg7 harg7 arg8 harg8 arg9 harg9 x0 x1 x2 x3 x4 x5 xo7 xo8 hc0
  (View.canon r.1, View.canon r.2.1, View.canon r.2.2.1)

end Point

section Regions
variable (V : (c : Dev nD) → (b : Ref sig .tc) → Buf (Elt F) ((c : Thread nD τ).loc b)) (c : Dev nD)

/-- `out1_A` at point `t`'s memrefs and input blocks. -/
def outA (t : Fin cfg1.N) (h0 : t.val % 10 = 0) : Vec F S5000x128 .f32 × Vec F S1x128 .f32 × Vec F S1x128 .f32 :=
  out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0)

/-- `out1_B` there, over the running sums `p`. -/
def outB (t : Fin cfg1.N) (h0 : ¬t.val % 10 = 0) (p : Vec F S1x128 .f32 × Vec F S1x128 .f32) : Vec F S5000x128 .f32 × Vec F S1x128 .f32 × Vec F S1x128 .f32 :=
  out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) p.1 p.2 (fun h => h0 ((hcond1_0 t).mp h))

/-- The three outputs after the body at position `n`: the running sums start afresh at the first point and go on from the point before at a later one. -/
def outsAt1 : (n : ℕ) → n < cfg1.N → Vec F S5000x128 .f32 × Vec F S1x128 .f32 × Vec F S1x128 .f32
  | 0, hn => outA V c ⟨0, hn⟩ (Nat.zero_mod _)
  | n + 1, hn =>
    if h0 : (n + 1) % 10 = 0 then outA V c ⟨n + 1, hn⟩ h0 else outB V c ⟨n + 1, hn⟩ h0 (outsAt1 n (Nat.lt_of_succ_lt hn)).2

theorem outsAt1_A (t : Fin cfg1.N) (h0 : t.val % 10 = 0) : outsAt1 V c t.val t.isLt = outA V c t h0 := by
  obtain ⟨_ | n, hn⟩ := t
  · rfl
  · exact dif_pos h0

theorem outsAt1_B (t : Fin cfg1.N) (h0 : ¬t.val % 10 = 0) :
    outsAt1 V c t.val t.isLt = outB V c t h0 (outsAt1 V c (t.val - 1) (Nat.lt_of_le_of_lt (Nat.sub_le _ _) t.isLt)).2 := by
  obtain ⟨_ | n, hn⟩ := t
  · exact absurd (Nat.zero_mod _) h0
  · exact dif_neg h0

/-- The proof data: the arrays as the region finds them; after the body at point `t` each input's buffer holds its block and the outputs hold `outsAt1`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2
  Φ _ := Pipeline.ΦA spec1 c
  q _ := fullShare
  owed _ := 0

theorem A_eq1 (w : Fin cfg1.W) : (dat1 V c).A w = V c (Pipeline.arrRef spec1 w) := rfl

/-- Each input's buffer holds its block at every point. -/
theorem before1_in (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) ∧ ∀ d, (dat1 V c).before 5 t d = iblk1 V c 5 t := by
  refine ⟨fun d => ?_, fun d => ?_, fun d => ?_, fun d => ?_, fun d => ?_, fun d => ?_⟩ <;>
    exact ((dat1 V c).before_in_eq_fetched _ rfl (fun _ => rfl) (fun _ _ _ => rfl) (fun _ => rfl) t d).trans rfl

/-- At a later point each running sum's buffer holds what the point before left. -/
theorem before1_acc (t : Fin cfg1.N) (h0 : ¬t.val % 10 = 0) :
    (∀ d, (dat1 V c).before 7 t d = (outsAt1 V c (t.val - 1) (Nat.lt_of_le_of_lt (Nat.sub_le _ _) t.isLt)).2.1)
      ∧ ∀ d, (dat1 V c).before 8 t d = (outsAt1 V c (t.val - 1) (Nat.lt_of_le_of_lt (Nat.sub_le _ _) t.isLt)).2.2 := by
  have hN : t.val < 10 := lt_of_lt_of_eq t.isLt N_1
  refine ⟨fun d => ?_, fun d => ?_⟩ <;>
    exact Dat.before_out_kept (dat1 V c) _ rfl t (by omega) (Bool.eq_false_iff.mpr fun h => by
      first | have := (flush1_7 _).mp h | have := (flush1_8 _).mp h
      dsimp only at this; omega) (fun _ => rfl) (fun _ _ => rfl) d

set_option maxHeartbeats 1600000 in
/-- The body at any point: the branch condition's closed form says which run applies; what it leaves reads back as `outsAt1` because the pieces cover each buffer. -/
theorem sound_body1 (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d))
      ∗ (∃ d, owns (c : Thread nD τ) (ms1_7 t) fullShare ((dat1 V c).before 7 t d))
      ∗ (∃ d, owns (c : Thread nD τ) (ms1_8 t) fullShare ((dat1 V c).before 8 t d)))
    ⊢ wp frame (wpE (defs₀ (F := F)) Variants.none c none) Set.univ (bodyAt1 t) (fun _ => iprop((dat1 V c).Φ t.castSucc ∗ (dat1 V c).owesAt () t.castSucc
      ∗ owns (c : Thread nD τ) (ms1_0 t) fullShare (iblk1 V c 0 t)
      ∗ owns (c : Thread nD τ) (ms1_1 t) fullShare (iblk1 V c 1 t)
      ∗ owns (c : Thread nD τ) (ms1_2 t) fullShare (iblk1 V c 2 t)
      ∗ owns (c : Thread nD τ) (ms1_3 t) fullShare (iblk1 V c 3 t)
      ∗ owns (c : Thread nD τ) (ms1_4 t) fullShare (iblk1 V c 4 t)
      ∗ owns (c : Thread nD τ) (ms1_5 t) fullShare (iblk1 V c 5 t)
      ∗ owns (c : Thread nD τ) (ms1_6 t) fullShare (outsAt1 V c t.val t.isLt).1
      ∗ owns (c : Thread nD τ) (ms1_7 t) fullShare (outsAt1 V c t.val t.isLt).2.1
      ∗ owns (c : Thread nD τ) (ms1_8 t) fullShare (outsAt1 V c t.val t.isLt).2.2)) := by
  unfold bodyAt1
  obtain ⟨b0, b1, b2, b3, b4, b5⟩ := before1_in V c t
  simp only [b0, b1, b2, b3, b4, b5]
  by_cases h0 : t.val % 10 = 0
  case' pos => rw [outsAt1_A V c t h0]; unfold outA out1_A
  case' neg =>
    rw [outsAt1_B V c t h0]; simp only [(before1_acc V c t h0).1, (before1_acc V c t h0).2]; unfold outB out1_B
  all_goals
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    first
      | iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) ((hcond1_0 t).mpr h0)).2.2.2 Set.univ _)
      | iapply ((kernelRun1_B c (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ _ (fun h => h0 ((hcond1_0 t).mp h))).2.2.2 Set.univ _)
    iframe H0 H1 H2 H3 H4 H5
    isplitl [H6]; · iexists _; iexact H6
    isplitl [H7]; · first | iexact H7 | (iexists _; iexact H7)
    isplitl [H8]; · first | iexact H8 | (iexists _; iexact H8)
    iintro ⟨H0, H1, H2, H3, H4, H5, ⟨%e6, H6⟩, ⟨%e7, H7⟩, ⟨%e8, H8⟩⟩
    iframe HΦ Ho H0 H1 H2 H3 H4 H5
    unfold owns
    isplitl [H6]
    · iexists _; isplitr
      swap; · iexact H6
      ipureintro; exact View.read_writes_eq_canon _ _ _ (View.cover_of_tiledL _ S5000x128.size (by sl_kernel_rfl))
    isplitl [H7]
    · iexists _; isplitr
      swap; · iexact H7
      ipureintro; exact View.read_writes_eq_canon _ _ _ (View.cover_of_tiledL _ S1x128.size (by sl_kernel_rfl))
    iexists _; isplitr
    swap; · iexact H8
    ipureintro; exact View.read_writes_eq_canon _ _ _ (View.cover_of_tiledL _ S1x128.size (by sl_kernel_rfl))

theorem body_obligation1 : BodyObligation (dat1 (F := F) V c) (defs₀ (F := F)) Variants.none () Set.univ := fun t => by
  rw [bigSep_W1, bigSep_W1]
  exact sound_body1 V c t

end Regions

end Cert.Kernel.Fr

end
-- ==== Proof.K.Reg2.lean ====
import proofs.«415257_j29506425324200_3_alg».proof.Proof.Gen.Kernel.Launch
import proofs.«415257_j29506425324200_3_alg».proof.Proof.Gen.Kernel.Skeleton
import proofs.«415257_j29506425324200_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128 := Rect.unit (s := S128) ![0] S128.size inb_S128_S128_0

def out2_5 (x0 : Vec F S5000x128 .f32) (x1 : Vec F S1x128 .f32) (x2 : Vec F S1x128 .f32) (x3 : Vec F S128 .f32) (x4 : Vec F S128 .f32) : Vec F S5000x128 .f32 :=
  View.canon [⟨r2_0, k2_pay1 (View.ld x0 r2_0) (View.ld x2 r2_1) (View.ld x3 r2_2) (View.ld x1 r2_1) (View.ld x4 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem body_obligation2 (c : Dev nD) : BodyObligation (dat2 (F := F) V c) (defs₀ (F := F)) Variants.none () Set.univ := fun t => by
  rw [bigSep_W2, bigSep_W2]
  show _ ⊢ wp _ _ _ (bodyAt2 t) _
  simp only [show ∀ d, (dat2 V c).before 0 t d = iblk2 V c 0 t from fun d => ((dat2 V c).before_in_eq_fetched 0 rfl (fun _ => rfl) (fun _ _ _ => rfl) (fun _ => rfl) t d).trans rfl,
    show ∀ d, (dat2 V c).before 1 t d = iblk2 V c 1 t from fun d => ((dat2 V c).before_in_eq_fetched 1 rfl (fun _ => rfl) (fun _ _ _ => rfl) (fun _ => rfl) t d).trans rfl,
    show ∀ d, (dat2 V c).before 2 t d = iblk2 V c 2 t from fun d => ((dat2 V c).before_in_eq_fetched 2 rfl (fun _ => rfl) (fun _ _ _ => rfl) (fun _ => rfl) t d).trans rfl,
    show ∀ d, (dat2 V c).before 3 t d = iblk2 V c 3 t from fun d => ((dat2 V c).before_in_eq_fetched 3 rfl (fun _ => rfl) (fun _ _ _ => rfl) (fun _ => rfl) t d).trans rfl,
    show ∀ d, (dat2 V c).before 4 t d = iblk2 V c 4 t from fun d => ((dat2 V c).before_in_eq_fetched 4 rfl (fun _ => rfl) (fun _ _ _ => rfl) (fun _ => rfl) t d).trans rfl]
  rw [show (dat2 V c).owesAt () t.succ = (dat2 V c).owesAt () t.castSucc from rfl]
  dsimp only [dat2]
  generalize iblk2 V c 0 t = x0, iblk2 V c 1 t = x1, iblk2 V c 2 t = x2, iblk2 V c 3 t = x3, iblk2 V c 4 t = x4
  unfold bodyAt2
  simp only [cc2__bn_kernel_eq_skeleton]; unfold cc2__bn_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (View.cover_of_tiled _ S5000x128.size (by rfl))

end Regions

end Cert.Kernel.Fr

end
-- ==== Proof.K.Run.lean ====
import proofs.«415257_j29506425324200_3_alg».proof.Proof.K.Reg0
import proofs.«415257_j29506425324200_3_alg».proof.Proof.K.Reg1
import proofs.«415257_j29506425324200_3_alg».proof.Proof.K.Reg2
import proofs.«415257_j29506425324200_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w

omit m ρ in
/-- A buffer keeps its contents across a region whose arrays hold it only where they end as they were entered. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

/-- `b` is written by no host stretch before region `k` and is an output of no region before it. -/
abbrev K1 (b : Ref sig .tc) : Prop := b ∉ hostOps0_W
abbrev K2 (b : Ref sig .tc) : Prop := K1 b ∧ ∀ w, Pipeline.arrRef spec0 w = b → (cfg0.win w).isOut = false
abbrev K3 (b : Ref sig .tc) : Prop := K2 b ∧ b ∉ hostOps1_W
abbrev K4 (b : Ref sig .tc) : Prop := K3 b ∧ ∀ w, Pipeline.arrRef spec1 w = b → (cfg1.win w).isOut = false
abbrev K5 (b : Ref sig .tc) : Prop := K4 b ∧ b ∉ hostOps2_W
abbrev K6 (b : Ref sig .tc) : Prop := K5 b ∧ ∀ w, Pipeline.arrRef spec2 w = b → (cfg2.win w).isOut = false

/-- Such a buffer still holds its launch contents at that boundary. -/
theorem W1_kept (c : Dev nD) (b : Ref sig .tc) (h : K1 b) : W1 m ρ c (Proc.devRef .tc b) = m ((c : Thread nD τ).loc b) :=
  (StableHlo.after_of_writes_sub hostOps0 _ hostOps0_writes h).trans rfl
theorem W2_kept (c : Dev nD) (b : Ref sig .tc) (h : K2 b) : W2 m ρ c (Proc.devRef .tc b) = m ((c : Thread nD τ).loc b) :=
  (withArrays_keep spec0 launch0.win.arr_inj c _ _ b fun w e =>
    ((dat0 (V1 m ρ) c).arrAt_in w (h.2 w e) _).trans (A_eq0 (V1 m ρ) c w)).trans (W1_kept m ρ c b h.1)
theorem W3_kept (c : Dev nD) (b : Ref sig .tc) (h : K3 b) : W3 m ρ c (Proc.devRef .tc b) = m ((c : Thread nD τ).loc b) :=
  (StableHlo.after_of_writes_sub hostOps1 _ hostOps1_writes h.2).trans (W2_kept m ρ c b h.1)
theorem W4_kept (c : Dev nD) (b : Ref sig .tc) (h : K4 b) : W4 m ρ c (Proc.devRef .tc b) = m ((c : Thread nD τ).loc b) :=
  (withArrays_keep spec1 launch1.win.arr_inj c _ _ b fun w e =>
    ((dat1 (V3 m ρ) c).arrAt_in w (h.2 w e) _).trans (A_eq1 (V3 m ρ) c w)).trans (W3_kept m ρ c b h.1)
theorem W5_kept (c : Dev nD) (b : Ref sig .tc) (h : K5 b) : W5 m ρ c (Proc.devRef .tc b) = m ((c : Thread nD τ).loc b) :=
  (StableHlo.after_of_writes_sub hostOps2 _ hostOps2_writes h.2).trans (W4_kept m ρ c b h.1)
theorem W6_kept (c : Dev nD) (b : Ref sig .tc) (h : K6 b) : W6 m ρ c (Proc.devRef .tc b) = m ((c : Thread nD τ).loc b) :=
  (withArrays_keep spec2 launch2.win.arr_inj c _ _ b fun w e =>
    ((dat2 (V5 m ρ) c).arrAt_in w (h.2 w e) _).trans (A_eq2 (V5 m ρ) c w)).trans (W5_kept m ρ c b h.1)

/-- A region's output array is kept by the host stretch after it. -/
theorem W3_main_v13 (c : Dev nD) : W3 m ρ c (Proc.devRef .tc main_v13) = (dat0 (V1 m ρ) c).arrAt 3 cfg0.N :=
  (StableHlo.after_of_writes_sub hostOps1 _ hostOps1_writes (by decide)).trans (W2_arr m ρ c 3)
theorem W5_main_v57_0 (c : Dev nD) : W5 m ρ c (Proc.devRef .tc main_v57_0) = (dat1 (V3 m ρ) c).arrAt 6 cfg1.N :=
  (StableHlo.after_of_writes_sub hostOps2 _ hostOps2_writes (by decide)).trans (W4_arr m ρ c 6)

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region `p` as one step of the program, from the buffers' contents `Wi` to `Wo`; the three regions differ only in
    the data given here. -/
def regSeg (p : Fin 3) (la : Pipeline.LaunchFacts (nD := nD) (τ := τ) cfgs p) (Wi Wo : Dev nD → Valuation τ sig (Elt F))
    (hb : ∀ c, BodyObligation (pdats m ρ p c) (defs₀ (F := F)) Variants.none () Set.univ)
    (hq : ∀ c w, (pdats m ρ p c).q w = fullShare) (ho : ∀ c t, (pdats m ρ p c).owed t = 0)
    (hrec : ∀ c t, (pdats m ρ p c).recorded t = Set.univ)
    (hΦ : ∀ c i, (pdats m ρ p c).Φ i = Pipeline.ΦA (cfgs p).spec c)
    (hA : ∀ c w, (pdats m ρ p c).A w = Wi c (Proc.devRef .tc (Pipeline.arrRef (cfgs p).spec w)))
    (hF : ∀ c w, (pdats m ρ p c).arrAt w (cfgs p).N = Wo c (Proc.devRef .tc (Pipeline.arrRef (cfgs p).spec w)))
    (hrest : ∀ c (b : Ref sig .tc), b ∉ Finset.univ.image (Pipeline.arrRef (cfgs p).spec) →
      Wo c (Proc.devRef .tc b) = Wi c (Proc.devRef .tc b)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c (Proc.devRef .tc b))
  hentry c := by
    rw [Pipeline.ownSems0_none]
    have hsplit := Pipeline.arrays_of_unscopedBufs (p := p) (pcfgs (F := F)) adm (pdats m ρ) la.win la.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun x _ => Or.inl ((hrec c 0).symm ▸ Set.mem_univ x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => Wi c (Proc.devRef .tc b)) (fun b => Wo c (Proc.devRef .tc b)) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

def reg0 := regSeg m ρ 0 launch0 (W1 m ρ) (W2 m ρ) (body_obligation0 (V1 m ρ)) (fun _ _ => rfl) (fun _ _ => rfl) (fun _ _ => rfl)
  (fun _ _ => rfl) (fun _ _ => rfl) (fun c w => (W2_arr m ρ c w).symm)
  fun c b hb => Pipeline.withArrays_of_ne spec0 c _ _ b fun w e => hb (Finset.mem_image.mpr ⟨w, Finset.mem_univ _, e⟩)
def reg1 := regSeg m ρ 1 launch1 (W3 m ρ) (W4 m ρ) (body_obligation1 (V3 m ρ)) (fun _ _ => rfl) (fun _ _ => rfl) (fun _ _ => rfl)
  (fun _ _ => rfl) (fun _ _ => rfl) (fun c w => (W4_arr m ρ c w).symm)
  fun c b hb => Pipeline.withArrays_of_ne spec1 c _ _ b fun w e => hb (Finset.mem_image.mpr ⟨w, Finset.mem_univ _, e⟩)
def reg2 := regSeg m ρ 2 launch2 (W5 m ρ) (W6 m ρ) (body_obligation2 (V5 m ρ)) (fun _ _ => rfl) (fun _ _ => rfl) (fun _ _ => rfl)
  (fun _ _ => rfl) (fun _ _ => rfl) (fun c w => (W6_arr m ρ c w).symm)
  fun c b hb => Pipeline.withArrays_of_ne spec2 c _ _ b fun w e => hb (Finset.mem_image.mpr ⟨w, Finset.mem_univ _, e⟩)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- Every argument's buffer holds in `mem` what it holds in `m`. -/
abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)

theorem run_val : θ_run defs (onTc (τ := τ) (main (F := F))) ⟨m, fun _ => 0, ρ⟩ (fun r => ∀ c : Dev nD,
      r.2.mem ((c.tc : Thread nD τ).loc main_v64) = W6 m ρ c (Proc.devRef .tc main_v64) ∧ ArgsKept m r.2.mem c) :=
  (θ_run defs _ _).mono (fun r h c =>
    have arg : ∀ b : Ref sig .tc, ¬ (Proc.devRef .tc b : DevRef τ sig).isScoped ∧ K6 b →
        r.2.mem ((c.tc : Thread nD τ).loc b) = m ((c.tc : Thread nD τ).loc b) :=
      fun b hb => (h c _ (mem_uc b hb.1)).trans (W6_kept m ρ c b hb.2)
    ⟨h c _ (mem_uc main_v64 (by decide)), arg main_arg0 (by decide), arg main_arg1 (by decide), arg main_arg2 (by decide), arg main_arg3 (by decide), arg main_arg4 (by decide), arg main_arg5 (by decide), arg main_arg6 (by decide), arg main_arg7 (by decide), arg main_arg8 (by decide), arg main_arg9 (by decide), arg main_arg10 (by decide), arg main_arg11 (by decide)⟩) (run m ρ)

theorem frame : θ_run defs (onTc (τ := τ) (main (F := F))) ⟨m, fun _ => 0, ρ⟩ (fun r => ∀ c : Dev nD, ArgsKept m r.2.mem c) :=
  (θ_run defs _ _).mono (fun _ h c => (h c).2) (run_val m ρ)

end Cert.Kernel.Fr

end
-- ==== Proof.KI.Reg0.lean ====
import proofs.«415257_j29506425324200_3_alg».proof.Proof.Gen.KernelIdeal.Launch
import proofs.«415257_j29506425324200_3_alg».proof.Proof.Gen.KernelIdeal.Skeleton
import proofs.«415257_j29506425324200_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x130 := Rect.unit (s := S128x130) ![0, 0] S128x130.size inb_S128x130_S128x130_0_0
abbrev r0_2 : Rect S130 := Rect.unit (s := S130) ![0] S130.size inb_S130_S130_0
abbrev r0_3 : Rect S5000x130 := Rect.unit (s := S5000x130) ![0, 0] S5000x130.size inb_S5000x130_S5000x130_0_0

def out0_3 (x0 : Vec F S5000x128 .f32) (x1 : Vec F S128x130 .f32) (x2 : Vec F S130 .f32) : Vec F S5000x130 .f32 :=
  View.canon [⟨r0_3, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [show ∀ d, (dat0 V c).before 0 t d = iblk0 V c 0 t from fun d => ((dat0 V c).before_in_eq_fetched 0 rfl (fun _ => rfl) (fun _ _ _ => rfl) (fun _ => rfl) t d).trans rfl,
    show ∀ d, (dat0 V c).before 1 t d = iblk0 V c 1 t from fun d => ((dat0 V c).before_in_eq_fetched 1 rfl (fun _ => rfl) (fun _ _ _ => rfl) (fun _ => rfl) t d).trans rfl,
    show ∀ d, (dat0 V c).before 2 t d = iblk0 V c 2 t from fun d => ((dat0 V c).before_in_eq_fetched 2 rfl (fun _ => rfl) (fun _ _ _ => rfl) (fun _ => rfl) t d).trans rfl]
  rw [show (dat0 V c).owesAt () t.succ = (dat0 V c).owesAt () t.castSucc from rfl]
  dsimp only [dat0]
  generalize iblk0 V c 0 t = x0, iblk0 V c 1 t = x1, iblk0 V c 2 t = x2
  unfold bodyAt0
  simp only [cc0__precompute_kernel_eq_skeleton]; unfold cc0__precompute_kernel_skel owns
  iintro ⟨HΦ, Ho, ⟨%d0, %f0, %hf0, H0⟩, ⟨%d1, %f1, %hf1, H1⟩, ⟨%d2, %f2, %hf2, H2⟩, ⟨%d3, %f3, -, H3⟩⟩
  subst hf0 hf1 hf2
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  iexists _; iframe H3; ipureintro
  exact View.read_writes_eq_canon _ _ _ (View.cover_of_tiled _ S5000x130.size (by rfl))

end Region0

end Cert.KernelIdeal.Fr

end
-- ==== Proof.KI.Reg1Runs.lean ====
import proofs.«415257_j29506425324200_3_alg».proof.Proof.Gen.KernelIdeal.Launch
import proofs.«415257_j29506425324200_3_alg».proof.Proof.Gen.KernelIdeal.Skeleton
import proofs.«415257_j29506425324200_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic

variable {F : FTy → Type} [FloatOps F]

/-- Window `w`'s block at point `t` of the arrays `V`. -/
def iblk1 (V : (c : Dev nD) → (b : Ref sig .tc) → Buf (Elt F) ((c : Thread nD τ).loc b)) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The body's one branch condition (it guards the zeroing of the two running sums), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x384 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S384 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x384 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S384 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)

end Cert.KernelIdeal.Fr

end
-- ==== Proof.KI.Reg1RunA.lean ====
import proofs.«415257_j29506425324200_3_alg».proof.Proof.KI.Reg1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)

set_option maxHeartbeats 1000000 in
/-- The pieces the body's stores leave in each output's buffer where the branch is taken (the two running sums are zeroed before they are read), with the body's run from whole buffers to them. -/
def kernelRun1_A (hc0 : cond1_0 i) :
    Σ' (L6 : List (View.Piece (Elt F) S5000x128 .f32)), Σ' (L7 : List (View.Piece (Elt F) S1x128 .f32)),
    { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1__gru_bn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__gru_bn_kernel_eq_skeleton]; unfold cc1__gru_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    iexists _; iexact H8

end Cert.KernelIdeal.Fr

end
-- ==== Proof.KI.Reg1RunB.lean ====
import proofs.«415257_j29506425324200_3_alg».proof.Proof.KI.Reg1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)
  (xo7 xo8 : Vec F S1x128 .f32)

set_option maxHeartbeats 1000000 in
/-- The same where the branch is not taken: the two running sums are read as the point before left them, `xo7` and `xo8`. -/
def kernelRun1_B (hc0 : ¬cond1_0 i) :
    Σ' (L6 : List (View.Piece (Elt F) S5000x128 .f32)), Σ' (L7 : List (View.Piece (Elt F) S1x128 .f32)),
    { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc1__gru_bn_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__gru_bn_kernel_eq_skeleton]; unfold cc1__gru_bn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    iexists _; iexact H8

end Cert.KernelIdeal.Fr

end
-- ==== Proof.KI.Reg1.lean ====
import proofs.«415257_j29506425324200_3_alg».proof.Proof.KI.Reg1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Point
variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)

/-- What the body leaves in the three outputs' buffers where the branch is taken: the canonical reading of each output's pieces. -/
def out1_A (hc0 : cond1_0 i) : Vec F S5000x128 .f32 × Vec F S1x128 .f32 × Vec F S1x128 .f32 :=
  let r := kernelRun1_A c i arg1 harg1 arg2 harg2 arg3 harg3 arg4 harg4 arg5 harg5 arg6 harg6 arg7 harg7 arg8 harg8 arg9 harg9 x0 x1 x2 x3 x4 x5 hc0
  (View.canon r.1, View.canon r.2.1, View.canon r.2.2.1)

variable (xo7 xo8 : Vec F S1x128 .f32)

/-- The same where the branch is not taken, over the running sums `xo7` and `xo8`. -/
def out1_B (hc0 : ¬cond1_0 i) : Vec F S5000x128 .f32 × Vec F S1x128 .f32 × Vec F S1x128 .f32 :=
  let r := kernelRun1_B c i arg1 harg1 arg2 harg2 arg3 harg3 arg4 harg4 arg5 harg5 arg6 harg6 arg7 harg7 arg8 harg8 arg9 harg9 x0 x1 x2 x3 x4 x5 xo7 xo8 hc0
  (View.canon r.1, View.canon r.2.1, View.canon r.2.2.1)

end Point

section Regions
variable (V : (c : Dev nD) → (b : Ref sig .tc) → Buf (Elt F) ((c : Thread nD τ).loc b)) (c : Dev nD)

/-- `out1_A` at point `t`'s memrefs and input blocks. -/
def outA (t : Fin cfg1.N) (h0 : t.val % 10 = 0) : Vec F S5000x128 .f32 × Vec F S1x128 .f32 × Vec F S1x128 .f32 :=
  out1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr h0)

/-- `out1_B` there, over the running sums `p`. -/
def outB (t : Fin cfg1.N) (h0 : ¬t.val % 10 = 0) (p : Vec F S1x128 .f32 × Vec F S1x128 .f32) : Vec F S5000x128 .f32 × Vec F S1x128 .f32 × Vec F S1x128 .f32 :=
  out1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) p.1 p.2 (fun h => h0 ((hcond1_0 t).mp h))

/-- The three outputs after the body at position `n`: the running sums start afresh at the first point and go on from the point before at a later one. -/
def outsAt1 : (n : ℕ) → n < cfg1.N → Vec F S5000x128 .f32 × Vec F S1x128 .f32 × Vec F S1x128 .f32
  | 0, hn => outA V c ⟨0, hn⟩ (Nat.zero_mod _)
  | n + 1, hn =>
    if h0 : (n + 1) % 10 = 0 then outA V c ⟨n + 1, hn⟩ h0 else outB V c ⟨n + 1, hn⟩ h0 (outsAt1 n (Nat.lt_of_succ_lt hn)).2

theorem outsAt1_A (t : Fin cfg1.N) (h0 : t.val % 10 = 0) : outsAt1 V c t.val t.isLt = outA V c t h0 := by
  obtain ⟨_ | n, hn⟩ := t
  · rfl
  · exact dif_pos h0

theorem outsAt1_B (t : Fin cfg1.N) (h0 : ¬t.val % 10 = 0) :
    outsAt1 V c t.val t.isLt = outB V c t h0 (outsAt1 V c (t.val - 1) (Nat.lt_of_le_of_lt (Nat.sub_le _ _) t.isLt)).2 := by
  obtain ⟨_ | n, hn⟩ := t
  · exact absurd (Nat.zero_mod _) h0
  · exact dif_neg h0

/-- The proof data: the arrays as the region finds them; after the body at point `t` each input's buffer holds its block and the outputs hold `outsAt1`. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2
  Φ _ := Pipeline.ΦA spec1 c
  q _ := fullShare
  owed _ := 0

theorem A_eq1 (w : Fin cfg1.W) : (dat1 V c).A w = V c (Pipeline.arrRef spec1 w) := rfl

/-- Each input's buffer holds its block at every point. -/
theorem before1_in (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) ∧ ∀ d, (dat1 V c).before 5 t d = iblk1 V c 5 t := by
  refine ⟨fun d => ?_, fun d => ?_, fun d => ?_, fun d => ?_, fun d => ?_, fun d => ?_⟩ <;>
    exact ((dat1 V c).before_in_eq_fetched _ rfl (fun _ => rfl) (fun _ _ _ => rfl) (fun _ => rfl) t d).trans rfl

/-- At a later point each running sum's buffer holds what the point before left. -/
theorem before1_acc (t : Fin cfg1.N) (h0 : ¬t.val % 10 = 0) :
    (∀ d, (dat1 V c).before 7 t d = (outsAt1 V c (t.val - 1) (Nat.lt_of_le_of_lt (Nat.sub_le _ _) t.isLt)).2.1)
      ∧ ∀ d, (dat1 V c).before 8 t d = (outsAt1 V c (t.val - 1) (Nat.lt_of_le_of_lt (Nat.sub_le _ _) t.isLt)).2.2 := by
  have hN : t.val < 10 := lt_of_lt_of_eq t.isLt N_1
  refine ⟨fun d => ?_, fun d => ?_⟩ <;>
    exact Dat.before_out_kept (dat1 V c) _ rfl t (by omega) (Bool.eq_false_iff.mpr fun h => by
      first | have := (flush1_7 _).mp h | have := (flush1_8 _).mp h
      dsimp only at this; omega) (fun _ => rfl) (fun _ _ => rfl) d

set_option maxHeartbeats 1600000 in
/-- The body at any point: the branch condition's closed form says which run applies; what it leaves reads back as `outsAt1` because the pieces cover each buffer. -/
theorem sound_body1 (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d))
      ∗ (∃ d, owns (c : Thread nD τ) (ms1_7 t) fullShare ((dat1 V c).before 7 t d))
      ∗ (∃ d, owns (c : Thread nD τ) (ms1_8 t) fullShare ((dat1 V c).before 8 t d)))
    ⊢ wp frame (wpE (defs₀ (F := F)) Variants.none c none) Set.univ (bodyAt1 t) (fun _ => iprop((dat1 V c).Φ t.castSucc ∗ (dat1 V c).owesAt () t.castSucc
      ∗ owns (c : Thread nD τ) (ms1_0 t) fullShare (iblk1 V c 0 t)
      ∗ owns (c : Thread nD τ) (ms1_1 t) fullShare (iblk1 V c 1 t)
      ∗ owns (c : Thread nD τ) (ms1_2 t) fullShare (iblk1 V c 2 t)
      ∗ owns (c : Thread nD τ) (ms1_3 t) fullShare (iblk1 V c 3 t)
      ∗ owns (c : Thread nD τ) (ms1_4 t) fullShare (iblk1 V c 4 t)
      ∗ owns (c : Thread nD τ) (ms1_5 t) fullShare (iblk1 V c 5 t)
      ∗ owns (c : Thread nD τ) (ms1_6 t) fullShare (outsAt1 V c t.val t.isLt).1
      ∗ owns (c : Thread nD τ) (ms1_7 t) fullShare (outsAt1 V c t.val t.isLt).2.1
      ∗ owns (c : Thread nD τ) (ms1_8 t) fullShare (outsAt1 V c t.val t.isLt).2.2)) := by
  unfold bodyAt1
  obtain ⟨b0, b1, b2, b3, b4, b5⟩ := before1_in V c t
  simp only [b0, b1, b2, b3, b4, b5]
  by_cases h0 : t.val % 10 = 0
  case' pos => rw [outsAt1_A V c t h0]; unfold outA out1_A
  case' neg =>
    rw [outsAt1_B V c t h0]; simp only [(before1_acc V c t h0).1, (before1_acc V c t h0).2]; unfold outB out1_B
  all_goals
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    first
      | iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) ((hcond1_0 t).mpr h0)).2.2.2 Set.univ _)
      | iapply ((kernelRun1_B c (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ _ (fun h => h0 ((hcond1_0 t).mp h))).2.2.2 Set.univ _)
    iframe H0 H1 H2 H3 H4 H5
    isplitl [H6]; · iexists _; iexact H6
    isplitl [H7]; · first | iexact H7 | (iexists _; iexact H7)
    isplitl [H8]; · first | iexact H8 | (iexists _; iexact H8)
    iintro ⟨H0, H1, H2, H3, H4, H5, ⟨%e6, H6⟩, ⟨%e7, H7⟩, ⟨%e8, H8⟩⟩
    iframe HΦ Ho H0 H1 H2 H3 H4 H5
    unfold owns
    isplitl [H6]
    · iexists _; isplitr
      swap; · iexact H6
      ipureintro; exact View.read_writes_eq_canon _ _ _ (View.cover_of_tiledL _ S5000x128.size (by sl_kernel_rfl))
    isplitl [H7]
    · iexists _; isplitr
      swap; · iexact H7
      ipureintro; exact View.read_writes_eq_canon _ _ _ (View.cover_of_tiledL _ S1x128.size (by sl_kernel_rfl))
    iexists _; isplitr
    swap; · iexact H8
    ipureintro; exact View.read_writes_eq_canon _ _ _ (View.cover_of_tiledL _ S1x128.size (by sl_kernel_rfl))

theorem body_obligation1 : BodyObligation (dat1 (F := F) V c) (defs₀ (F := F)) Variants.none () Set.univ := fun t => by
  rw [bigSep_W1, bigSep_W1]
  exact sound_body1 V c t

end Regions

end Cert.KernelIdeal.Fr

end
-- ==== Proof.KI.Reg2.lean ====
import proofs.«415257_j29506425324200_3_alg».proof.Proof.Gen.KernelIdeal.Launch
import proofs.«415257_j29506425324200_3_alg».proof.Proof.Gen.KernelIdeal.Skeleton
import proofs.«415257_j29506425324200_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128 := Rect.unit (s := S128) ![0] S128.size inb_S128_S128_0

def out2_5 (x0 : Vec F S5000x128 .f32) (x1 : Vec F S1x128 .f32) (x2 : Vec F S1x128 .f32) (x3 : Vec F S128 .f32) (x4 : Vec F S128 .f32) : Vec F S5000x128 .f32 :=
  View.canon [⟨r2_0, k2_pay1 (View.ld x0 r2_0) (View.ld x2 r2_1) (View.ld x3 r2_2) (View.ld x1 r2_1) (View.ld x4 r2_2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := rfl

theorem body_obligation2 (c : Dev nD) : BodyObligation (dat2 (F := F) V c) (defs₀ (F := F)) Variants.none () Set.univ := fun t => by
  rw [bigSep_W2, bigSep_W2]
  show _ ⊢ wp _ _ _ (bodyAt2 t) _
  simp only [show ∀ d, (dat2 V c).before 0 t d = iblk2 V c 0 t from fun d => ((dat2 V c).before_in_eq_fetched 0 rfl (fun _ => rfl) (fun _ _ _ => rfl) (fun _ => rfl) t d).trans rfl,
    show ∀ d, (dat2 V c).before 1 t d = iblk2 V c 1 t from fun d => ((dat2 V c).before_in_eq_fetched 1 rfl (fun _ => rfl) (fun _ _ _ => rfl) (fun _ => rfl) t d).trans rfl,
    show ∀ d, (dat2 V c).before 2 t d = iblk2 V c 2 t from fun d => ((dat2 V c).before_in_eq_fetched 2 rfl (fun _ => rfl) (fun _ _ _ => rfl) (fun _ => rfl) t d).trans rfl,
    show ∀ d, (dat2 V c).before 3 t d = iblk2 V c 3 t from fun d => ((dat2 V c).before_in_eq_fetched 3 rfl (fun _ => rfl) (fun _ _ _ => rfl) (fun _ => rfl) t d).trans rfl,
    show ∀ d, (dat2 V c).before 4 t d = iblk2 V c 4 t from fun d => ((dat2 V c).before_in_eq_fetched 4 rfl (fun _ => rfl) (fun _ _ _ => rfl) (fun _ => rfl) t d).trans rfl]
  rw [show (dat2 V c).owesAt () t.succ = (dat2 V c).owesAt () t.castSucc from rfl]
  dsimp only [dat2]
  generalize iblk2 V c 0 t = x0, iblk2 V c 1 t = x1, iblk2 V c 2 t = x2, iblk2 V c 3 t = x3, iblk2 V c 4 t = x4
  unfold bodyAt2
  simp only [cc2__bn_kernel_eq_skeleton]; unfold cc2__bn_kernel_skel owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  subst hf0 hf1 hf2 hf3 hf4
  sl_exec
  sl_step
  iframe HΦ Ho
  isplitl [H0]; · iexists f0; iframe H0; ipureintro; rfl
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  iexists _; iframe H5; ipureintro
  exact View.read_writes_eq_canon _ _ _ (View.cover_of_tiled _ S5000x128.size (by rfl))

end Regions

end Cert.KernelIdeal.Fr

end
-- ==== Proof.KI.Run.lean ====
import proofs.«415257_j29506425324200_3_alg».proof.Proof.KI.Reg0
import proofs.«415257_j29506425324200_3_alg».proof.Proof.KI.Reg1
import proofs.«415257_j29506425324200_3_alg».proof.Proof.KI.Reg2
import proofs.«415257_j29506425324200_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N

theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w

omit m ρ in
/-- A buffer keeps its contents across a region whose arrays hold it only where they end as they were entered. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (b : Ref sig .tc) (h : ∀ w, Pipeline.arrRef win w = b → A w = V (Proc.devRef .tc (Pipeline.arrRef win w))) :
    Pipeline.withArrays win c V A (Proc.devRef .tc b) = V (Proc.devRef .tc b) := by
  by_cases hb : ∃ w, Pipeline.arrRef win w = b
  · obtain ⟨w, rfl⟩ := hb
    exact (Pipeline.withArrays_arr win hinj c V A w).trans (h w rfl)
  · exact Pipeline.withArrays_of_ne win c V A b fun w e => hb ⟨w, e⟩

/-- `b` is written by no host stretch before region `k` and is an output of no region before it. -/
abbrev K1 (b : Ref sig .tc) : Prop := b ∉ hostOps0_W
abbrev K2 (b : Ref sig .tc) : Prop := K1 b ∧ ∀ w, Pipeline.arrRef spec0 w = b → (cfg0.win w).isOut = false
abbrev K3 (b : Ref sig .tc) : Prop := K2 b ∧ b ∉ hostOps1_W
abbrev K4 (b : Ref sig .tc) : Prop := K3 b ∧ ∀ w, Pipeline.arrRef spec1 w = b → (cfg1.win w).isOut = false
abbrev K5 (b : Ref sig .tc) : Prop := K4 b ∧ b ∉ hostOps2_W
abbrev K6 (b : Ref sig .tc) : Prop := K5 b ∧ ∀ w, Pipeline.arrRef spec2 w = b → (cfg2.win w).isOut = false

/-- Such a buffer still holds its launch contents at that boundary. -/
theorem W1_kept (c : Dev nD) (b : Ref sig .tc) (h : K1 b) : W1 m ρ c (Proc.devRef .tc b) = m ((c : Thread nD τ).loc b) :=
  (StableHlo.after_of_writes_sub hostOps0 _ hostOps0_writes h).trans rfl
theorem W2_kept (c : Dev nD) (b : Ref sig .tc) (h : K2 b) : W2 m ρ c (Proc.devRef .tc b) = m ((c : Thread nD τ).loc b) :=
  (withArrays_keep spec0 launch0.win.arr_inj c _ _ b fun w e =>
    ((dat0 (V1 m ρ) c).arrAt_in w (h.2 w e) _).trans (A_eq0 (V1 m ρ) c w)).trans (W1_kept m ρ c b h.1)
theorem W3_kept (c : Dev nD) (b : Ref sig .tc) (h : K3 b) : W3 m ρ c (Proc.devRef .tc b) = m ((c : Thread nD τ).loc b) :=
  (StableHlo.after_of_writes_sub hostOps1 _ hostOps1_writes h.2).trans (W2_kept m ρ c b h.1)
theorem W4_kept (c : Dev nD) (b : Ref sig .tc) (h : K4 b) : W4 m ρ c (Proc.devRef .tc b) = m ((c : Thread nD τ).loc b) :=
  (withArrays_keep spec1 launch1.win.arr_inj c _ _ b fun w e =>
    ((dat1 (V3 m ρ) c).arrAt_in w (h.2 w e) _).trans (A_eq1 (V3 m ρ) c w)).trans (W3_kept m ρ c b h.1)
theorem W5_kept (c : Dev nD) (b : Ref sig .tc) (h : K5 b) : W5 m ρ c (Proc.devRef .tc b) = m ((c : Thread nD τ).loc b) :=
  (StableHlo.after_of_writes_sub hostOps2 _ hostOps2_writes h.2).trans (W4_kept m ρ c b h.1)
theorem W6_kept (c : Dev nD) (b : Ref sig .tc) (h : K6 b) : W6 m ρ c (Proc.devRef .tc b) = m ((c : Thread nD τ).loc b) :=
  (withArrays_keep spec2 launch2.win.arr_inj c _ _ b fun w e =>
    ((dat2 (V5 m ρ) c).arrAt_in w (h.2 w e) _).trans (A_eq2 (V5 m ρ) c w)).trans (W5_kept m ρ c b h.1)

/-- A region's output array is kept by the host stretch after it. -/
theorem W3_main_v13 (c : Dev nD) : W3 m ρ c (Proc.devRef .tc main_v13) = (dat0 (V1 m ρ) c).arrAt 3 cfg0.N :=
  (StableHlo.after_of_writes_sub hostOps1 _ hostOps1_writes (by decide)).trans (W2_arr m ρ c 3)
theorem W5_main_v57_0 (c : Dev nD) : W5 m ρ c (Proc.devRef .tc main_v57_0) = (dat1 (V3 m ρ) c).arrAt 6 cfg1.N :=
  (StableHlo.after_of_writes_sub hostOps2 _ hostOps2_writes (by decide)).trans (W4_arr m ρ c 6)

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Region `p` as one step of the program, from the buffers' contents `Wi` to `Wo`; the three regions differ only in
    the data given here. -/
def regSeg (p : Fin 3) (la : Pipeline.LaunchFacts (nD := nD) (τ := τ) cfgs p) (Wi Wo : Dev nD → Valuation τ sig (Elt F))
    (hb : ∀ c, BodyObligation (pdats m ρ p c) (defs₀ (F := F)) Variants.none () Set.univ)
    (hq : ∀ c w, (pdats m ρ p c).q w = fullShare) (ho : ∀ c t, (pdats m ρ p c).owed t = 0)
    (hrec : ∀ c t, (pdats m ρ p c).recorded t = Set.univ)
    (hΦ : ∀ c i, (pdats m ρ p c).Φ i = Pipeline.ΦA (cfgs p).spec c)
    (hA : ∀ c w, (pdats m ρ p c).A w = Wi c (Proc.devRef .tc (Pipeline.arrRef (cfgs p).spec w)))
    (hF : ∀ c w, (pdats m ρ p c).arrAt w (cfgs p).N = Wo c (Proc.devRef .tc (Pipeline.arrRef (cfgs p).spec w)))
    (hrest : ∀ c (b : Ref sig .tc), b ∉ Finset.univ.image (Pipeline.arrRef (cfgs p).spec) →
      Wo c (Proc.devRef .tc b) = Wi c (Proc.devRef .tc b)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c (Proc.devRef .tc b))
  hentry c := by
    rw [Pipeline.ownSems0_none]
    have hsplit := Pipeline.arrays_of_unscopedBufs (p := p) (pcfgs (F := F)) adm (pdats m ρ) la.win la.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun x _ => Or.inl ((hrec c 0).symm ▸ Set.mem_univ x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => Wi c (Proc.devRef .tc b)) (fun b => Wo c (Proc.devRef .tc b)) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c]
    icases HO with ⟨%W, -, HO⟩; iexists W; iexact HO

def reg0 := regSeg m ρ 0 launch0 (W1 m ρ) (W2 m ρ) (body_obligation0 (V1 m ρ)) (fun _ _ => rfl) (fun _ _ => rfl) (fun _ _ => rfl)
  (fun _ _ => rfl) (fun _ _ => rfl) (fun c w => (W2_arr m ρ c w).symm)
  fun c b hb => Pipeline.withArrays_of_ne spec0 c _ _ b fun w e => hb (Finset.mem_image.mpr ⟨w, Finset.mem_univ _, e⟩)
def reg1 := regSeg m ρ 1 launch1 (W3 m ρ) (W4 m ρ) (body_obligation1 (V3 m ρ)) (fun _ _ => rfl) (fun _ _ => rfl) (fun _ _ => rfl)
  (fun _ _ => rfl) (fun _ _ => rfl) (fun c w => (W4_arr m ρ c w).symm)
  fun c b hb => Pipeline.withArrays_of_ne spec1 c _ _ b fun w e => hb (Finset.mem_image.mpr ⟨w, Finset.mem_univ _, e⟩)
def reg2 := regSeg m ρ 2 launch2 (W5 m ρ) (W6 m ρ) (body_obligation2 (V5 m ρ)) (fun _ _ => rfl) (fun _ _ => rfl) (fun _ _ => rfl)
  (fun _ _ => rfl) (fun _ _ => rfl) (fun c w => (W6_arr m ρ c w).symm)
  fun c b hb => Pipeline.withArrays_of_ne spec2 c _ _ b fun w e => hb (Finset.mem_image.mpr ⟨w, Finset.mem_univ _, e⟩)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- Every argument's buffer holds in `mem` what it holds in `m`. -/
abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)

theorem run_val : θ_run defs (onTc (τ := τ) (main (F := F))) ⟨m, fun _ => 0, ρ⟩ (fun r => ∀ c : Dev nD,
      r.2.mem ((c.tc : Thread nD τ).loc main_v64) = W6 m ρ c (Proc.devRef .tc main_v64) ∧ ArgsKept m r.2.mem c) :=
  (θ_run defs _ _).mono (fun r h c =>
    have arg : ∀ b : Ref sig .tc, ¬ (Proc.devRef .tc b : DevRef τ sig).isScoped ∧ K6 b →
        r.2.mem ((c.tc : Thread nD τ).loc b) = m ((c.tc : Thread nD τ).loc b) :=
      fun b hb => (h c _ (mem_uc b hb.1)).trans (W6_kept m ρ c b hb.2)
    ⟨h c _ (mem_uc main_v64 (by decide)), arg main_arg0 (by decide), arg main_arg1 (by decide), arg main_arg2 (by decide), arg main_arg3 (by decide), arg main_arg4 (by decide), arg main_arg5 (by decide), arg main_arg6 (by decide), arg main_arg7 (by decide), arg main_arg8 (by decide), arg main_arg9 (by decide), arg main_arg10 (by decide), arg main_arg11 (by decide)⟩) (run m ρ)

theorem frame : θ_run defs (onTc (τ := τ) (main (F := F))) ⟨m, fun _ => 0, ρ⟩ (fun r => ∀ c : Dev nD, ArgsKept m r.2.mem c) :=
  (θ_run defs _ _).mono (fun _ h c => (h c).2) (run_val m ρ)

end Cert.KernelIdeal.Fr

end
-- ==== Proof.RI.Run.lean ====
import proofs.«415257_j29506425324200_3_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_arg4 main_v18 ((extractStridedSlice S128x1 ![0, 0] · slices_S256x1_S128x1_0_0) : (⟨S256x1, .f32⟩ : BufTy).Contents (Elt F) → (⟨S128x1, .f32⟩ : BufTy).Contents (Elt F)),
    binary main_v10 main_v18 main_v19 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg4 main_v20 ((extractStridedSlice S128x1 ![128, 0] · slices_S256x1_S128x1_128_0) : (⟨S256x1, .f32⟩ : BufTy).Contents (Elt F) → (⟨S128x1, .f32⟩ : BufTy).Contents (Elt F)),
    binary main_v17 main_v20 main_v21 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    binary main_v19 main_v21 main_v22 (addf : (⟨S800000x1, .f32⟩ : BufTy).Contents (Elt F) → (⟨S800000x1, .f32⟩ : BufTy).Contents (Elt F) → (⟨S800000x1, .f32⟩ : BufTy).Contents (Elt F)),
    unary main_arg5 main_v23 (broadcastInDim S1x1 ![1] bcast_S1_S1x1_1 : (⟨S1, .f32⟩ : BufTy).Contents (Elt F) → (⟨S1x1, .f32⟩ : BufTy).Contents (Elt F)),
    unary main_v23 main_v24 (broadcastInDim S800000x1 ![0, 1] bcast_S1x1_S800000x1_0_1 : (⟨S1x1, .f32⟩ : BufTy).Contents (Elt F) → (⟨S800000x1, .f32⟩ : BufTy).Contents (Elt F)),
    binary main_v22 main_v24 main_v25 (addf : (⟨S800000x1, .f32⟩ : BufTy).Contents (Elt F) → (⟨S800000x1, .f32⟩ : BufTy).Contents (Elt F) → (⟨S800000x1, .f32⟩ : BufTy).Contents (Elt F)),
    unary main_v25 main_v26 (Host.negf : (⟨S800000x1, .f32⟩ : BufTy).Contents (Elt F) → (⟨S800000x1, .f32⟩ : BufTy).Contents (Elt F)),
    unary main_v26 main_v27 (Host.exp : (⟨S800000x1, .f32⟩ : BufTy).Contents (Elt F) → (⟨S800000x1, .f32⟩ : BufTy).Contents (Elt F)),
    nullary main_cst (constant S_ .f32 0x3F800000#32),
    unary main_cst main_v28 (broadcastInDim S800000x1 ![] bcast_S_S800000x1 : (⟨S_, .f32⟩ : BufTy).Contents (Elt F) → (⟨S800000x1, .f32⟩ : BufTy).Contents (Elt F)),
    binary main_v28 main_v27 main_v29 (addf : (⟨S800000x1, .f32⟩ : BufTy).Contents (Elt F) → (⟨S800000x1, .f32⟩ : BufTy).Contents (Elt F) → (⟨S800000x1, .f32⟩ : BufTy).Contents (Elt F)),
    nullary main_cst_3 (constant S_ .f32 0x3F800000#32),
    unary main_cst_3 main_v30 (broadcastInDim S800000x1 ![] bcast_S_S800000x1 : (⟨S_, .f32⟩ : BufTy).Contents (Elt F) → (⟨S800000x1, .f32⟩ : BufTy).Contents (Elt F)),
    binary main_v30 main_v29 main_v31 (Host.divf : (⟨S800000x1, .f32⟩ : BufTy).Contents (Elt F) → (⟨S800000x1, .f32⟩ : BufTy).Contents (Elt F) → (⟨S800000x1, .f32⟩ : BufTy).Contents (Elt F)),
    binary main_v10 main_arg2 main_v32 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg3 main_v33 (broadcastInDim S1x128 ![1] bcast_S128_S1x128_1 : (⟨S128, .f32⟩ : BufTy).Contents (Elt F) → (⟨S1x128, .f32⟩ : BufTy).Contents (Elt F)),
    unary main_v33 main_v34 (broadcastInDim S800000x128 ![0, 1] bcast_S1x128_S800000x128_0_1 : (⟨S1x128, .f32⟩ : BufTy).Contents (Elt F) → (⟨S800000x128, .f32⟩ : BufTy).Contents (Elt F)),
    binary main_v32 main_v34 main_v35 (addf : (⟨S800000x128, .f32⟩ : BufTy).Contents (Elt F) → (⟨S800000x128, .f32⟩ : BufTy).Contents (Elt F) → (⟨S800000x128, .f32⟩ : BufTy).Contents (Elt F)),
    unary main_v31 main_v36 (broadcastInDim S800000x128 ![0, 1] bcast_S800000x1_S800000x128_0_1 : (⟨S800000x1, .f32⟩ : BufTy).Contents (Elt F) → (⟨S800000x128, .f32⟩ : BufTy).Contents (Elt F)),
    binary main_v35 main_v36 main_v37 (mulf : (⟨S800000x128, .f32⟩ : BufTy).Contents (Elt F) → (⟨S800000x128, .f32⟩ : BufTy).Contents (Elt F) → (⟨S800000x128, .f32⟩ : BufTy).Contents (Elt F)),
    nullary main_cst_4 (constant S_ .f32 0x00000000#32),
    unary main_cst_4 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg6 main_v41 ((transpose S128x384 [1, 0] · transposes_S384x128_S128x384_1_0) : (⟨S384x128, .f32⟩ : BufTy).Contents (Elt F) → (⟨S128x384, .f32⟩ : BufTy).Contents (Elt F)),
    binary main_v40 main_v41 main_v42 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg7 main_v43 (broadcastInDim S1x384 ![1] bcast_S384_S1x384_1 : (⟨S384, .f32⟩ : BufTy).Contents (Elt F) → (⟨S1x384, .f32⟩ : BufTy).Contents (Elt F)),
    unary main_v43 main_v44 (broadcastInDim S50000x384 ![0, 1] bcast_S1x384_S50000x384_0_1 : (⟨S1x384, .f32⟩ : BufTy).Contents (Elt F) → (⟨S50000x384, .f32⟩ : BufTy).Contents (Elt F)),
    binary main_v42 main_v44 main_v45 (addf : (⟨S50000x384, .f32⟩ : BufTy).Contents (Elt F) → (⟨S50000x384, .f32⟩ : BufTy).Contents (Elt F) → (⟨S50000x384, .f32⟩ : BufTy).Contents (Elt F)),
    unary main_arg8 main_v46 ((transpose S128x384 [1, 0] · transposes_S384x128_S128x384_1_0) : (⟨S384x128, .f32⟩ : BufTy).Contents (Elt F) → (⟨S128x384, .f32⟩ : BufTy).Contents (Elt F)),
    binary main_arg0 main_v46 main_v47 ((fun l r => Host.dotGeneral dot_S50000x128_S128x384_S50000x384_1_0_0_1_n_n none l r) : (⟨S50000x128, .f32⟩ : BufTy).Contents (Elt F) → (⟨S128x384, .f32⟩ : BufTy).Contents (Elt F) → (⟨S50000x384, .f32⟩ : BufTy).Contents (Elt F)),
    unary main_arg9 main_v48 (broadcastInDim S1x384 ![1] bcast_S384_S1x384_1 : (⟨S384, .f32⟩ : BufTy).Contents (Elt F) → (⟨S1x384, .f32⟩ : BufTy).Contents (Elt F)),
    unary main_v48 main_v49 (broadcastInDim S50000x384 ![0, 1] bcast_S1x384_S50000x384_0_1 : (⟨S1x384, .f32⟩ : BufTy).Contents (Elt F) → (⟨S50000x384, .f32⟩ : BufTy).Contents (Elt F)),
    binary main_v47 main_v49 main_v50 (addf : (⟨S50000x384, .f32⟩ : BufTy).Contents (Elt F) → (⟨S50000x384, .f32⟩ : BufTy).Contents (Elt F) → (⟨S50000x384, .f32⟩ : BufTy).Contents (Elt F)),
    unary main_v45 main_v51 ((extractStridedSlice S50000x128 ![0, 0] · slices_S50000x384_S50000x128_0_0) : (⟨S50000x384, .f32⟩ : BufTy).Contents (Elt F) → (⟨S50000x128, .f32⟩ : BufTy).Contents (Elt F)),
    unary main_v45 main_v52 ((extractStridedSlice S50000x128 ![0, 128] · slices_S50000x384_S50000x128_0_128) : (⟨S50000x384, .f32⟩ : BufTy).Contents (Elt F) → (⟨S50000x128, .f32⟩ : BufTy).Contents (Elt F)) ]

abbrev ops_part1a : List (HloOp τ sig (Elt F)) :=
  [ unary main_v45 main_v53 ((extractStridedSlice S50000x128 ![0, 256] · slices_S50000x384_S50000x128_0_256) : (⟨S50000x384, .f32⟩ : BufTy).Contents (Elt F) → (⟨S50000x128, .f32⟩ : BufTy).Contents (Elt F)),
    unary main_v50 main_v54 ((extractStridedSlice S50000x128 ![0, 0] · slices_S50000x384_S50000x128_0_0) : (⟨S50000x384, .f32⟩ : BufTy).Contents (Elt F) → (⟨S50000x128, .f32⟩ : BufTy).Contents (Elt F)),
    unary main_v50 main_v55 ((extractStridedSlice S50000x128 ![0, 128] · slices_S50000x384_S50000x128_0_128) : (⟨S50000x384, .f32⟩ : BufTy).Contents (Elt F) → (⟨S50000x128, .f32⟩ : BufTy).Contents (Elt F)),
    unary main_v50 main_v56 ((extractStridedSlice S50000x128 ![0, 256] · slices_S50000x384_S50000x128_0_256) : (⟨S50000x384, .f32⟩ : BufTy).Contents (Elt F) → (⟨S50000x128, .f32⟩ : BufTy).Contents (Elt F)),
    binary main_v51 main_v54 main_v57 (addf : (⟨S50000x128, .f32⟩ : BufTy).Contents (Elt F) → (⟨S50000x128, .f32⟩ : BufTy).Contents (Elt F) → (⟨S50000x128, .f32⟩ : BufTy).Contents (Elt F)),
    unary main_v57 main_v58 (Host.negf : (⟨S50000x128, .f32⟩ : BufTy).Contents (Elt F) → (⟨S50000x128, .f32⟩ : BufTy).Contents (Elt F)),
    unary main_v58 main_v59 (Host.exp : (⟨S50000x128, .f32⟩ : BufTy).Contents (Elt F) → (⟨S50000x128, .f32⟩ : BufTy).Contents (Elt F)),
    nullary main_cst_5 (constant S_ .f32 0x3F800000#32),
    unary main_cst_5 main_v60 (broadcastInDim S50000x128 ![] bcast_S_S50000x128 : (⟨S_, .f32⟩ : BufTy).Contents (Elt F) → (⟨S50000x128, .f32⟩ : BufTy).Contents (Elt F)),
    binary main_v60 main_v59 main_v61 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3F800000#32),
    unary main_cst_6 main_v62 (broadcastInDim S50000x128 ![] bcast_S_S50000x128 : (⟨S_, .f32⟩ : BufTy).Contents (Elt F) → (⟨S50000x128, .f32⟩ : BufTy).Contents (Elt F)),
    binary main_v62 main_v61 main_v63 (Host.divf : (⟨S50000x128, .f32⟩ : BufTy).Contents (Elt F) → (⟨S50000x128, .f32⟩ : BufTy).Contents (Elt F) → (⟨S50000x128, .f32⟩ : BufTy).Contents (Elt F)),
    binary main_v52 main_v55 main_v64 (addf : (⟨S50000x128, .f32⟩ : BufTy).Contents (Elt F) → (⟨S50000x128, .f32⟩ : BufTy).Contents (Elt F) → (⟨S50000x128, .f32⟩ : BufTy).Contents (Elt F)),
    unary main_v64 main_v65 (Host.negf : (⟨S50000x128, .f32⟩ : BufTy).Contents (Elt F) → (⟨S50000x128, .f32⟩ : BufTy).Contents (Elt F)),
    unary main_v65 main_v66 (Host.exp : (⟨S50000x128, .f32⟩ : BufTy).Contents (Elt F) → (⟨S50000x128, .f32⟩ : BufTy).Contents (Elt F)),
    nullary main_cst_7 (constant S_ .f32 0x3F800000#32),
    unary main_cst_7 main_v67 (broadcastInDim S50000x128 ![] bcast_S_S50000x128 : (⟨S_, .f32⟩ : BufTy).Contents (Elt F) → (⟨S50000x128, .f32⟩ : BufTy).Contents (Elt F)),
    binary main_v67 main_v66 main_v68 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3F800000#32),
    unary main_cst_8 main_v69 (broadcastInDim S50000x128 ![] bcast_S_S50000x128 : (⟨S_, .f32⟩ : BufTy).Contents (Elt F) → (⟨S50000x128, .f32⟩ : BufTy).Contents (Elt F)),
    binary main_v69 main_v68 main_v70 (Host.divf : (⟨S50000x128, .f32⟩ : BufTy).Contents (Elt F) → (⟨S50000x128, .f32⟩ : BufTy).Contents (Elt F) → (⟨S50000x128, .f32⟩ : BufTy).Contents (Elt F)),
    binary main_v63 main_v56 main_v71 (mulf : (⟨S50000x128, .f32⟩ : BufTy).Contents (Elt F) → (⟨S50000x128, .f32⟩ : BufTy).Contents (Elt F) → (⟨S50000x128, .f32⟩ : BufTy).Contents (Elt F)),
    binary main_v53 main_v71 main_v72 (addf : (⟨S50000x128, .f32⟩ : BufTy).Contents (Elt F) → (⟨S50000x128, .f32⟩ : BufTy).Contents (Elt F) → (⟨S50000x128, .f32⟩ : BufTy).Contents (Elt F)),
    unary main_v72 main_v73 (Host.tanh : (⟨S50000x128, .f32⟩ : BufTy).Contents (Elt F) → (⟨S50000x128, .f32⟩ : BufTy).Contents (Elt F)),
    nullary main_cst_9 (constant S_ .f32 0x3F800000#32),
    unary main_cst_9 main_v74 (broadcastInDim S50000x128 ![] bcast_S_S50000x128 : (⟨S_, .f32⟩ : BufTy).Contents (Elt F) → (⟨S50000x128, .f32⟩ : BufTy).Contents (Elt F)),
    binary main_v74 main_v70 main_v75 (subf : (⟨S50000x128, .f32⟩ : BufTy).Contents (Elt F) → (⟨S50000x128, .f32⟩ : BufTy).Contents (Elt F) → (⟨S50000x128, .f32⟩ : BufTy).Contents (Elt F)),
    binary main_v75 main_v73 main_v76 (mulf : (⟨S50000x128, .f32⟩ : BufTy).Contents (Elt F) → (⟨S50000x128, .f32⟩ : BufTy).Contents (Elt F) → (⟨S50000x128, .f32⟩ : BufTy).Contents (Elt F)),
    binary main_v70 main_arg0 main_v77 (mulf : (⟨S50000x128, .f32⟩ : BufTy).Contents (Elt F) → (⟨S50000x128, .f32⟩ : BufTy).Contents (Elt F) → (⟨S50000x128, .f32⟩ : BufTy).Contents (Elt F)),
    binary main_v76 main_v77 main_v78 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v78 main_cst_10 main_v79 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_11 (constant S_ .f32 0x47435000#32),
    unary main_cst_11 main_v80 (broadcastInDim S128 ![] bcast_S_S128 : (⟨S_, .f32⟩ : BufTy).Contents (Elt F) → (⟨S128, .f32⟩ : BufTy).Contents (Elt F)),
    binary main_v79 main_v80 main_v81 (Host.divf : (⟨S128, .f32⟩ : BufTy).Contents (Elt F) → (⟨S128, .f32⟩ : BufTy).Contents (Elt F) → (⟨S128, .f32⟩ : BufTy).Contents (Elt F)),
    nullary main_c_12 (constantI S_ 32 0#32) ]

abbrev ops_call0 : List (HloOp τ sig (Elt F)) :=
  [ TRef.nullary main_call0.cst (constant S_ .f32 0x00000000#32),
    TRef.binary (.of main_v78 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v78 : TRef sig ⟨S50000x128, .f32⟩) main_call0.v4 main_call0.v5 subf,
    TRef.binary main_call0.v5 main_call0.v5 main_call0.v6 mulf,
    TRef.unary (.of main_c_12 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

abbrev ops_part1b : List (HloOp τ sig (Elt F)) :=
  [ unary main_v81 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v78 main_v84 main_v85 (subf : (⟨S50000x128, .f32⟩ : BufTy).Contents (Elt F) → (⟨S50000x128, .f32⟩ : BufTy).Contents (Elt F) → (⟨S50000x128, .f32⟩ : BufTy).Contents (Elt F)),
    unary main_arg10 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v87 main_v85 main_v88 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v89 (broadcastInDim S128 ![] bcast_S_S128 : (⟨S_, .f32⟩ : BufTy).Contents (Elt F) → (⟨S128, .f32⟩ : BufTy).Contents (Elt F)),
    binary main_v82 main_v89 main_v90 (addf : (⟨S128, .f32⟩ : BufTy).Contents (Elt F) → (⟨S128, .f32⟩ : BufTy).Contents (Elt F) → (⟨S128, .f32⟩ : BufTy).Contents (Elt F)),
    unary main_v90 main_v91 (Host.rsqrt : (⟨S128, .f32⟩ : BufTy).Contents (Elt F) → (⟨S128, .f32⟩ : BufTy).Contents (Elt F)),
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v88 main_v93 main_v94 (mulf : (⟨S50000x128, .f32⟩ : BufTy).Contents (Elt F) → (⟨S50000x128, .f32⟩ : BufTy).Contents (Elt F) → (⟨S50000x128, .f32⟩ : BufTy).Contents (Elt F)),
    unary main_arg11 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v94 main_v96 main_v97 (addf : (⟨S50000x128, .f32⟩ : BufTy).Contents (Elt F) → (⟨S50000x128, .f32⟩ : BufTy).Contents (Elt F) → (⟨S50000x128, .f32⟩ : BufTy).Contents (Elt F)) ]

abbrev ops_part1 : List (HloOp τ sig (Elt F)) := ops_part1a ++ (ops_call0 ++ ops_part1b)

abbrev ops : List (HloOp τ sig (Elt F)) := ops_part0 ++ ops_part1

set_option maxRecDepth 8192 in
theorem main_part0_eq (c : Dev nD) : main_part0 (F := F) c = seq ops_part0 := rfl

set_option maxRecDepth 8192 in
theorem main_part1_eq (c : Dev nD) : main_part1 (F := F) c = seq ops_part1 := by
  simp only [main_part1, fn_var.body, fn_where.body, ops_part1, ops_part1a, ops_call0, ops_part1b, seq_append, seq,
    bind_assoc, pure_bind]

theorem main_eq (c : Dev nD) : main (F := F) c = seq ops :=
  (show main (F := F) c = (main_part0 c >>= fun _ => main_part1 c) from rfl).trans
    (by rw [main_part0_eq, main_part1_eq]; exact (seq_append _ _).symm)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig := by
  simp only [List.forall_append, List.Forall, TRef.nullary, TRef.unary, TRef.binary, TRef.ternary, nullary_bufs_sub,
    unary_bufs_sub, binary_bufs_sub, ternary_bufs_sub, reshape_bufs_sub, and_self]

abbrev ops_W : List (Ref sig .tc) :=
  [ main_v0, main_v1, main_v2, main_v3, main_c, main_v4, main_v5, main_c_0, main_v6, main_v7,
    main_v8, main_v9, main_v10, main_c_1, main_v11, main_v12, main_c_2, main_v13, main_v14, main_v15,
    main_v16, main_v17, main_v18, main_v19, main_v20, main_v21, main_v22, main_v23, main_v24, main_v25,
    main_v26, main_v27, main_cst, main_v28, main_v29, main_cst_3, main_v30, main_v31, main_v32, main_v33,
    main_v34, main_v35, main_v36, main_v37, main_cst_4, main_v38, main_v39, main_v40, main_v41, main_v42,
    main_v43, main_v44, main_v45, main_v46, main_v47, main_v48, main_v49, main_v50, main_v51, main_v52,
    main_v53, main_v54, main_v55, main_v56, main_v57, main_v58, main_v59, main_cst_5, main_v60, main_v61,
    main_cst_6, main_v62, main_v63, main_v64, main_v65, main_v66, main_cst_7, main_v67, main_v68, main_cst_8,
    main_v69, main_v70, main_v71, main_v72, main_v73, main_cst_9, main_v74, main_v75, main_v76, main_v77,
    main_v78, main_cst_10, main_v79, main_cst_11, main_v80, main_v81, main_c_12, main_call0_cst, main_call0_v0, main_call0_v1,
    main_call0_cst_0, main_call0_v2, main_call0_v3, main_call0_v4, main_call0_v5, main_call0_v6, main_call0_v7, main_call0_cst_1, main_call0_v8, main_call0_cst_2,
    main_call0_v9, main_call0_v10, main_call0_v11, main_call0_cst_3, main_call0_v12, main_call0_cst_4, main_call0_call0_v0, main_call0_call0_v1, main_v82, main_v83,
    main_v84, main_v85, main_v86, main_v87, main_v88, main_cst_13, main_v89, main_v90, main_v91, main_v92,
    main_v93, main_v94, main_v95, main_v96, main_v97 ]

local macro "writes_mem" : tactic =>
  `(tactic| (simp only [nullary_writes, unary_writes, binary_writes, ternary_writes, reshape_writes,
      Finset.singleton_subset_iff, List.mem_toFinset]; exact List.mem_map_of_mem (by decide)))

set_option maxRecDepth 8192 in
theorem ops_writes : (ops : List (HloOp τ sig (Elt F))).Forall fun op => op.writes ⊆ (ops_W.map (Proc.devRef (τ := τ) .tc)).toFinset := by
  simp only [List.forall_append, List.Forall]
  repeat' apply And.intro
  all_goals writes_mem

theorem ops_part0_writes : (ops_part0 : List (HloOp τ sig (Elt F))).Forall fun op => op.writes ⊆ (ops_W.map (Proc.devRef (τ := τ) .tc)).toFinset :=
  (List.forall_append.mp ops_writes).1
theorem ops_part1a_writes : (ops_part1a : List (HloOp τ sig (Elt F))).Forall fun op => op.writes ⊆ (ops_W.map (Proc.devRef (τ := τ) .tc)).toFinset :=
  (List.forall_append.mp (List.forall_append.mp ops_writes).2).1

theorem after_ops_keep (V : Valuation τ sig (Elt F)) (r : Ref sig .tc) (h : r ∉ ops_W) :
    after ops V (Proc.devRef .tc r) = V (Proc.devRef .tc r) :=
  after_of_writes_sub ops V ops_writes h

set_option maxRecDepth 8192 in
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- Every argument's buffer holds in `mem` what it holds in `m`. -/
abbrev ArgsKept (m mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)

set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97) = after ops (launchContents m c) (Proc.devRef .tc main_v97) ∧ ArgsKept m r.2.mem c :=
  (θ_run defs _ _).mono (fun r h c =>
    have arg : ∀ b : Ref sig .tc, b ∉ ops_W → r.2.mem ((c.tc : Thread nD τ).loc b) = m ((c.tc : Thread nD τ).loc b) :=
      fun b hb => (h c b).trans (after_ops_keep _ b hb)
    ⟨h c main_v97, arg main_arg0 (by decide), arg main_arg1 (by decide), arg main_arg2 (by decide), arg main_arg3 (by decide), arg main_arg4 (by decide), arg main_arg5 (by decide), arg main_arg6 (by decide), arg main_arg7 (by decide), arg main_arg8 (by decide), arg main_arg9 (by decide), arg main_arg10 (by decide), arg main_arg11 (by decide)⟩)
    (run_all m ρ)

theorem frame (m : (ℓ : Loc nD τ sig) → Buf (Elt F) ℓ) (ρ : Dev nD → PrngReg) :
    θ_run defs (onTc (τ := τ) (main (F := F))) ⟨m, fun _ => 0, ρ⟩ fun r => ∀ c : Dev nD, ArgsKept m r.2.mem c :=
  (θ_run defs _ _).mono (fun _ h c => (h c).2) (run m ρ)

end Cert.ReferenceIdeal.RefRun

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev A2 (a b : Nat) := (⟨2, ![a, b]⟩ : Shape).Idx → EReal
abbrev A1 (a : Nat) := (⟨1, ![a]⟩ : Shape).Idx → EReal

/-- Row `p` of `x` times column `q` of `W`, plus `b q`. -/
def aff130 (x : A2 50000 128) (W : A2 128 130) (b : A1 130) (p : Fin 50000) (q : Fin 130) : EReal :=
  (∑ k : Fin 128, x (ix2 p k) * W (ix2 k q)) + b (ix1 q)

def aff384 (x : A2 50000 128) (W : A2 128 384) (b : A1 384) (p : Fin 50000) (q : Fin 384) : EReal :=
  (∑ k : Fin 128, x (ix2 p k) * W (ix2 k q)) + b (ix1 q)

def one : EReal := Ideal.ofBits .f32 0x3F800000#32

def eps : EReal := Ideal.ofBits .f32 0x3727C5AC#32

/-- The gated recurrent update of node `p` at feature `q`. -/
def gru (agg x : A2 50000 128) (Wih : A2 128 384) (bih : A1 384) (Whh : A2 128 384) (bhh : A1 384)
    (p : Fin 50000) (q : Fin 128) : EReal :=
  let r := Ideal.logistic (aff384 agg Wih bih p ⟨q.val, by omega⟩ + aff384 x Whh bhh p ⟨q.val, by omega⟩)
  let z := Ideal.logistic (aff384 agg Wih bih p ⟨128 + q.val, by omega⟩ + aff384 x Whh bhh p ⟨128 + q.val, by omega⟩)
  let n := Ideal.tanh (aff384 agg Wih bih p ⟨256 + q.val, by omega⟩ + r * aff384 x Whh bhh p ⟨256 + q.val, by omega⟩)
  (one - z) * n + z * x (ix2 p q)

/-- `g (h - mu) / sqrt (v + eps) + b`. -/
def bn (g : EReal) (h mu v b : EReal) : EReal := g * (h - mu) * Ideal.rsqrt (v + eps) + b

end Cert.Spec

end
-- ==== Proof.KI.FoldA.lean ====
import proofs.«415257_j29506425324200_3_alg».proof.Proof.KI.Run
import proofs.«415257_j29506425324200_3_alg».proof.Proof.Spec
import Idealize.ShloMosaic.Lib.StableHlo.Run
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

abbrev cN : EReal := Ideal.ofBits .f32 0x47435000#32

theorem mean_eq (c : Dev nD) :
    (V5 m ρ c main_v59 : S1x128.Idx → EReal)
      = Host.divf (W4 m ρ c (Proc.devRef .tc main_v57_1)) (broadcastInDim S1x128 ![] bcast_S_S1x128 (constant (F := Ideal) S_ .f32 0x47435000#32)) := by
  show StableHlo.after hostOps2 (W4 m ρ c) (Proc.devRef .tc main_v59) = _
  after_results

theorem var_eq (c : Dev nD) :
    (V5 m ρ c main_v63 : S1x128.Idx → EReal)
      = subf (Host.divf (W4 m ρ c (Proc.devRef .tc main_v57_2)) (broadcastInDim S1x128 ![] bcast_S_S1x128 (constant (F := Ideal) S_ .f32 0x47435000#32)))
          (mulf (Host.divf (W4 m ρ c (Proc.devRef .tc main_v57_1)) (broadcastInDim S1x128 ![] bcast_S_S1x128 (constant (F := Ideal) S_ .f32 0x47435000#32)))
            (Host.divf (W4 m ρ c (Proc.devRef .tc main_v57_1)) (broadcastInDim S1x128 ![] bcast_S_S1x128 (constant (F := Ideal) S_ .f32 0x47435000#32)))) := by
  show StableHlo.after hostOps2 (W4 m ρ c) (Proc.devRef .tc main_v63) = _
  after_results

theorem out_formula (c : Dev nD) (H : Fin 50000 → Fin 128 → EReal)
    (hT2 : ∀ (p : Fin 50000) (q : Fin 128), (dat2 (F := Ideal) (V5 m ρ) c).arrAt 5 cfg2.N (ix2 p q)
      = bn (V5 m ρ c main_arg10 (ix1 q)) (V5 m ρ c main_v57_0 (ix2 p q)) (V5 m ρ c main_v59 (ix2 0 q)) (V5 m ρ c main_v63 (ix2 0 q)) (V5 m ρ c main_arg11 (ix1 q)))
    (hT1a : ∀ (p : Fin 50000) (q : Fin 128), (dat1 (F := Ideal) (V3 m ρ) c).arrAt 6 cfg1.N (ix2 p q) = H p q)
    (hT1b : ∀ q : Fin 128, (dat1 (F := Ideal) (V3 m ρ) c).arrAt 7 cfg1.N (ix2 0 q) = ∑ p : Fin 50000, H p q)
    (hT1c : ∀ q : Fin 128, (dat1 (F := Ideal) (V3 m ρ) c).arrAt 8 cfg1.N (ix2 0 q) = ∑ p : Fin 50000, H p q * H p q)
    (p : Fin 50000) (q : Fin 128) :
    (W6 m ρ c (Proc.devRef .tc main_v64) : S50000x128.Idx → EReal) (ix2 p q)
      = bn (m ((c : Thread nD τ).loc main_arg10) (ix1 q)) (H p q) (Ideal.div (∑ p : Fin 50000, H p q) cN)
          (Ideal.div (∑ p : Fin 50000, H p q * H p q) cN - Ideal.div (∑ p : Fin 50000, H p q) cN * Ideal.div (∑ p : Fin 50000, H p q) cN)
          (m ((c : Thread nD τ).loc main_arg11) (ix1 q)) := by
  rw [W6_arr m ρ c 5, hT2 p q, mean_eq m ρ c, var_eq m ρ c]
  have e10 : V5 m ρ c main_arg10 = m ((c : Thread nD τ).loc main_arg10) := W5_kept m ρ c main_arg10 (by decide)
  have e11 : V5 m ρ c main_arg11 = m ((c : Thread nD τ).loc main_arg11) := W5_kept m ρ c main_arg11 (by decide)
  have e0 : V5 m ρ c main_v57_0 = (dat1 (V3 m ρ) c).arrAt 6 cfg1.N := W5_main_v57_0 m ρ c
  rw [e10, e11, e0, W4_arr m ρ c 7, W4_arr m ρ c 8, hT1a p q]
  simp only [Host.divf, subf, mulf, broadcastInDim, constant, Ideal.hostDivf_def, Ideal.mulf_def, Ideal.subf_def, Ideal.ofBits_def,
    hT1b q, hT1c q]

end Cert.KernelIdeal.Val

end
-- ==== Proof.KI.Val0.lean ====
import proofs.«415257_j29506425324200_3_alg».proof.Proof.KI.Reg0
import proofs.«415257_j29506425324200_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.ValueIdx Idealize.ShloMosaic.TcCoe Idealize.SL.Sem
open Idealize.ShloMosaic.Pipeline (Dat)

theorem mm0_apply (x0 : FVec Ideal S5000x128 .f32) (x1 : FVec Ideal S128x130 .f32) (p : Fin 5000) (q : Fin 130) :
    FloatOps.matmul dot_S5000x128_S128x130_S5000x130_1_0_0_1_n_n (some .fp32) x0 x1 (constant (F := Ideal) S5000x130 .f32 0x00000000#32) (ix2 p q)
      = ∑ k : Fin 128, x0 (ix2 p k) * x1 (ix2 k q) := by
  rw [Ideal.matmul_constant_zero_apply, ← Equiv.sum_comp (contrEquiv1 _ 128 rfl rfl).symm]
  refine Finset.sum_congr rfl fun k _ => ?_
  have hk := contrEquiv1_symm_val dot_S5000x128_S128x130_S5000x130_1_0_0_1_n_n 128 rfl rfl k
  refine congrArg₂ (· * ·) (congrArg x0 (funext fun a => Fin.ext ?_)) (congrArg x1 (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

theorem k0_pay1_apply (x0 : Vec Ideal S5000x128 .f32) (x1 : Vec Ideal S128x130 .f32) (x2 : Vec Ideal S130 .f32) (p : Fin 5000) (q : Fin 130) :
    k0_pay1 (F := Ideal) x0 x1 x2 (ix2 p q) = (∑ k : Fin 128, x0 (ix2 p k) * x1 (ix2 k q)) + x2 (ix1 q) := by
  unfold k0_pay1
  simp only [shapeCast_self]
  refine congrArg₂ (· + ·) (mm0_apply x0 x1 p q) ?_
  refine (broadcastTo_1b_ab_apply _ _ p q).trans ?_
  exact shapeCast_a_1a_apply x2 _ 0 q

section
variable (V : (c : Dev nD) → (b : Ref sig .tc) → Buf (Elt Ideal) ((c : Thread nD τ).loc b))

theorem zeros2_r0 : (![0, 0] : Fin 2 → Nat) = fun _ => 0 := by decide
theorem zeros1_r0 : (![0] : Fin 1 → Nat) = fun _ => 0 := by decide

theorem idx_facts0 : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

theorem xblk0_apply (c : Dev nD) (t : Fin cfg0.N) (p : Fin 5000) (k : Fin 128) (P : Fin 50000) (hP : P.val = t.val * 5000 + p.val) :
    (iblk0 V c 0 t : Vec Ideal S5000x128 .f32) (ix2 p k) = (V c main_arg0 : A2 50000 128) (ix2 P k) := by
  obtain ⟨e0, e1, -⟩ := idx_facts0 t
  refine (View.read_apply ..).trans (congrArg (V c main_arg0) (funext fun a => Fin.ext ?_))
  match a with
  | ⟨0, _⟩ => show win0_0.index t (0 : Fin 2) * 5000 + 1 * p.val = P.val; omega
  | ⟨1, _⟩ => show win0_0.index t (1 : Fin 2) * 128 + 1 * k.val = k.val; omega

theorem wblk0_apply (c : Dev nD) (t : Fin cfg0.N) (y : S128x130.Idx) : (iblk0 V c 1 t : Vec Ideal S128x130 .f32) y = (V c main_v10 : A2 128 130) y :=
  (View.read_apply ..).trans (congrArg (V c main_v10) (funext fun a => Fin.ext (win0_1.rect_emb_val_of_index_zero t a ((by decide +kernel : ∀ t : Fin grid0.N, ∀ a, win0_1.index t a = 0) t a) y)))

theorem bblk0_apply (c : Dev nD) (t : Fin cfg0.N) (y : S130.Idx) : (iblk0 V c 2 t : Vec Ideal S130 .f32) y = (V c main_v12 : A1 130) y :=
  (View.read_apply ..).trans (congrArg (V c main_v12) (funext fun a => Fin.ext (win0_2.rect_emb_val_of_index_zero t a ((by decide +kernel : ∀ t : Fin grid0.N, ∀ a, win0_2.index t a = 0) t a) y)))

theorem blk0_point (c : Dev nD) (t : Fin cfg0.N) (j : S5000x130.Idx) (P : Fin 50000) (Q : Fin 130) (hP : P.val = t.val * 5000 + (j 0).val) (hQ : Q.val = (j 1).val) :
    k0_pay1 (F := Ideal) (iblk0 V c 0 t) (iblk0 V c 1 t) (iblk0 V c 2 t) j = aff130 (V c main_arg0) (V c main_v10) (V c main_v12) P Q := by
  obtain ⟨p, q, rfl⟩ : ∃ (p : Fin 5000) (q : Fin 130), j = ix2 p q := ⟨j 0, j 1, eq_ix2 j⟩
  obtain rfl : Q = q := Fin.ext hQ
  rw [k0_pay1_apply, bblk0_apply]
  exact congrArg (· + _) (Finset.sum_congr rfl fun k _ => by rw [xblk0_apply V c t p k P hP, wblk0_apply])

def G0 (c : Dev nD) : S50000x130.Idx → EReal := fun i =>
  aff130 (V c main_arg0) (V c main_v10) (V c main_v12) (i 0) (i 1)

theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  dsimp only [dat0]
  unfold out0_3
  rw [View.canon_unit_zero zeros2_r0]
  simp only [View.ld_unit_zero (S := S5000x128) zeros2_r0, View.ld_unit_zero (S := S128x130) zeros2_r0, View.ld_unit_zero (S := S130) zeros1_r0]
  obtain ⟨-, -, e5, e6⟩ := idx_facts0 t
  funext j
  show k0_pay1 (F := Ideal) (iblk0 V c 0 t) (iblk0 V c 1 t) (iblk0 V c 2 t) j = G0 V c (((cfg0.win 3).blk t).view.emb j)
  unfold G0
  refine blk0_point V c t j _ _ ?_ ?_
  · show win0_3.index t (0 : Fin 2) * 5000 + 1 * (j 0).val = t.val * 5000 + (j 0).val; omega
  · show win0_3.index t (1 : Fin 2) * 130 + 1 * (j 1).val = (j 1).val; omega

theorem cover0 (i : S50000x130.Idx) : ∃ t : Fin cfg0.N, (cfg0.win 3).flush t = true ∧ i ∈ ((cfg0.win 3).blk t).view.set := by
  have hi0 : (i 0).val < 50000 := (i 0).isLt
  have hi1 : (i 1).val < 130 := (i 1).isLt
  have hN : cfg0.N = 10 := N_0
  obtain ⟨t, ht⟩ : ∃ t : Fin cfg0.N, t.val = (i 0).val / 5000 := ⟨⟨_, by omega⟩, rfl⟩
  obtain ⟨-, -, e5, e6⟩ := idx_facts0 t
  refine ⟨t, flush0_3 t, ?_⟩
  show i ∈ ((View.whole main_v13).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 130 ≤ (i 1).val ∧ (i 1).val < win0_3.index t (1 : Fin 2) * 130 + 130; omega

theorem val0 (c : Dev nD) (p : Fin 50000) (q : Fin 130) :
    (dat0 (F := Ideal) V c).arrAt 3 cfg0.N (ix2 p q) = aff130 (V c main_arg0) (V c main_v10) (V c main_v12) p q :=
  congrFun ((dat0 V c).arrAt_eq_of_cover 3 (G0 V c) (fun t _ => flushed0_eq V c t) cover0) (ix2 p q)

end

end Cert.KernelIdeal.Val

end
-- ==== Proof.Alg.Msg.lean ====
import proofs.«415257_j29506425324200_3_alg».proof.KernelIdeal
import proofs.«415257_j29506425324200_3_alg».proof.ReferenceIdeal
import proofs.«415257_j29506425324200_3_alg».proof.Proof.Spec
import Idealize.ShloMosaic.Lib.ValueLayout
import Idealize.ShloMosaic.Lib.StackMember
import Idealize.ShloMosaic.Lib.StableHlo.Predicate

noncomputable section

namespace Cert.Alg.Msg

open Idealize.ShloMosaic Idealize.ShloMosaic.ValueIdx Idealize.ShloMosaic.StableHlo.Predicate Cert.Spec

section Reads
variable {α : Type}

abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Start index `e` as a row of the operand: signed, clamped to `[0, N - 1]`. -/
def rowOf {N R w : Nat} (hN : 0 < N) (idx : IVec ⟨2, ![R, 1]⟩ w) (e : Fin R) : Fin N :=
  ⟨min (idx (ixP e)).toInt.toNat (N - 1), by omega⟩

/-- Gathering rows re-indexes the row coordinate only. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowsDims N R C wf) x idx (ix2 e q) = x (ix2 (rowOf hN idx e) q) := by
  unfold Host.gather
  congr 1
  funext a
  refine Fin.ext ?_
  match a with
  | ⟨0, _⟩ =>
    show (rowsDims N R C wf).start (ix2 e q) idx 0 + (rowsDims N R C wf).batchCoord (ix2 e q) 0
      + (rowsDims N R C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e q) ⟨List.idxOf (0 : Fin 2) (rowsDims N R C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    show (rowsDims N R C wf).start (ix2 e q) idx 1 + (rowsDims N R C wf).batchCoord (ix2 e q) 1
      + (rowsDims N R C wf).offCoord (ix2 e q) 1 = _
    rw [GatherDims.batchCoord_eq_zero _ _ _ List.not_mem_nil]
    unfold GatherDims.start
    rw [dif_neg (show (1 : Fin 2) ∉ (rowsDims N R C wf).startIndexMap from
      (by decide : (1 : Fin 2) ∉ ([0] : List (Fin 2))))]
    unfold GatherDims.offCoord
    rw [dif_pos (show (1 : Fin 2) ∈ (rowsDims N R C wf).sKept from
      (GatherDims.mem_sKept _ _).mpr ⟨(by decide : (1 : Fin 2) ∉ ([0] : List (Fin 2))), List.not_mem_nil⟩)]
    simp only [Nat.zero_add]
    rfl

theorem ofFin_eq {n : ℕ} (p : Fin n) : Shape.Idx.ofFin p = ix1 p := funext fun | ⟨0, _⟩ => rfl

abbrev nodeOf (idx : IVec ⟨2, ![800000, 1]⟩ 32) (e : Fin 800000) : Fin 50000 :=
  rowOf (N := 50000) (by decide) idx e

theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Reads

/-- `1 / (1 + exp (-z))`. -/
def sigmoid (z : EReal) : EReal := Ideal.div one (one + Ideal.exp (-z))

section Kernel
open Cert.KernelIdeal Cert.KernelIdeal.Facts₀
variable [Cert.KernelIdeal.Facts₀] (Wmsg : FVec Ideal S128x128 .f32) (Watt : FVec Ideal S256x1 .f32)
  (bmsg : FVec Ideal S128 .f32) (comb : FVec Ideal S50000x130 .f32) (v v1 v3 : IVec S800000 32) (batt : FVec Ideal S1 .f32)

/-- Rows `o .. o + 127` of the attention weight as one column. -/
def attColK (o : ℕ) (h : S256x1.Slices ![o, 0] S128x1) : FVec Ideal S128x1 .f32 :=
  broadcastInDim S128x1 ![0] bcast_S128_S128x1_0
    (shapeCast S128 (extractStridedSlice S128x1 ![o, 0] Watt h) shapeCasts_S128x1_S128)

theorem attColK_apply (o : ℕ) (h : S256x1.Slices ![o, 0] S128x1) (k : Fin 128) (c : Fin 256) (hc : c.val = o + k.val) :
    attColK Watt o h (ix2 k (0 : Fin 1)) = Watt (ix2 c (0 : Fin 1)) := by
  unfold attColK
  rw [broadcastInDim_apply _ _ _ (ix2 k (0 : Fin 1)) (ix1 k) fun | ⟨0, _⟩ => rfl, shapeCast_a1_a_apply]
  exact slice2_axis0_apply o Watt h k 0 c hc

def zeros2K : FVec Ideal S2 .f32 := broadcastInDim S2 ![] bcast_S_S2 (constant S_ .f32 0x00000000#32)

/-- `[Wmsg | Watt[0:128] | Watt[128:256]]`: 130 columns. -/
def WcK : FVec Ideal S128x130 .f32 :=
  concatenate S128x130 1 [⟨S128x128, Wmsg⟩, ⟨S128x1, attColK Watt 0 slices_S256x1_S128x1_0_0⟩,
    ⟨S128x1, attColK Watt 128 slices_S256x1_S128x1_128_0⟩] concatenates_S128x128_S128x1_S128x1_S128x130_d1

/-- `[bmsg | 0 | 0]`. -/
def bcK : FVec Ideal S130 .f32 :=
  concatenate S130 0 [⟨S128, bmsg⟩, ⟨S2, zeros2K⟩] concatenates_S128_S2_S130_d0

theorem WcK_apply_msg (k : Fin 128) (j : Fin 130) (hj : j.val < 128) :
    WcK Wmsg Watt (ix2 k j) = Wmsg (ix2 k ⟨j.val, hj⟩) :=
  concatenate_apply_piece (t := S128x130) (1 : Fin 2) _ _ (ix2 k j) 0 (by simp) S128x128 Wmsg (by rfl) rfl 0 (by rfl)
    (ix2 k ⟨j.val, hj⟩) (fun | ⟨0, _⟩, _ => rfl | ⟨1, _⟩, hb => absurd rfl hb) (Nat.zero_add _)

theorem WcK_apply_128 (k : Fin 128) :
    WcK Wmsg Watt (ix2 k (⟨128, by decide⟩ : Fin 130)) = Watt (ix2 (⟨k.val, by omega⟩ : Fin 256) (0 : Fin 1)) :=
  (concatenate_apply_piece (t := S128x130) (1 : Fin 2) _ _ (ix2 k (⟨128, by decide⟩ : Fin 130)) 1 (by simp) S128x1 _ (by rfl) rfl 128 (by rfl)
    (ix2 k (0 : Fin 1)) (fun | ⟨0, _⟩, _ => rfl | ⟨1, _⟩, hb => absurd rfl hb) rfl).trans
    (attColK_apply Watt 0 _ k _ (Nat.zero_add _).symm)

theorem WcK_apply_129 (k : Fin 128) :
    WcK Wmsg Watt (ix2 k (⟨129, by decide⟩ : Fin 130)) = Watt (ix2 (⟨128 + k.val, by omega⟩ : Fin 256) (0 : Fin 1)) :=
  (concatenate_apply_piece (t := S128x130) (1 : Fin 2) _ _ (ix2 k (⟨129, by decide⟩ : Fin 130)) 2 (by simp) S128x1 _ (by rfl) rfl 129 (by rfl)
    (ix2 k (0 : Fin 1)) (fun | ⟨0, _⟩, _ => rfl | ⟨1, _⟩, hb => absurd rfl hb) rfl).trans
    (attColK_apply Watt 128 _ k _ rfl)

theorem bcK_apply_msg (j : Fin 130) (hj : j.val < 128) : bcK bmsg (ix1 j) = bmsg (ix1 ⟨j.val, hj⟩) :=
  concatenate_apply_piece (t := S130) (0 : Fin 1) _ _ (ix1 j) 0 (by simp) S128 bmsg (by rfl) rfl 0 (by rfl)
    (ix1 ⟨j.val, hj⟩) (fun | ⟨0, _⟩, hb => absurd rfl hb) (Nat.zero_add _)

theorem bcK_apply_zero (j : Fin 130) (hj : 128 ≤ j.val) : bcK bmsg (ix1 j) = 0 :=
  (concatenate_apply_piece (t := S130) (0 : Fin 1) _ _ (ix1 j) 1 (by simp) S2 zeros2K (by rfl) rfl 128 (by rfl)
    (ix1 (⟨j.val - 128, by omega⟩ : Fin 2)) (fun | ⟨0, _⟩, hb => absurd rfl hb)
    (by show 128 + (j.val - 128) = j.val; omega)).trans Ideal.ofBits_zero_f32

def idxOfK : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

def attK (o : ℕ) (h : S50000x130.Slices ![0, o] S50000x1) : FVec Ideal S50000 .f32 :=
  shapeCast S50000 (extractStridedSlice S50000x1 ![0, o] comb h) shapeCasts_S50000x1_S50000

theorem attK_apply (o : ℕ) (h : S50000x130.Slices ![0, o] S50000x1) (p : Fin 50000) (c : Fin 130) (hc : c.val = o + 0) :
    attK comb o h (ix1 p) = comb (ix2 p c) :=
  (shapeCast_a1_a_apply _ _ p).trans (slice2_axis1_apply o comb h p 0 c hc)

/-- Per edge: `sigmoid (comb[src, 128] + comb[dst, 129] + batt)`. -/
def gateK : FVec Ideal S800000 .f32 :=
  Host.divf (broadcastInDim S800000 ![] bcast_S_S800000 (constant S_ .f32 0x3F800000#32))
    (addf (broadcastInDim S800000 ![] bcast_S_S800000 (constant S_ .f32 0x3F800000#32))
      (Host.exp (Host.negf
        (addf
          (addf (Host.gather gather_S50000_S800000x1_S800000_n_0_n_n_0_1_1 (attK comb 128 slices_S50000x130_S50000x1_0_128) (idxOfK v1))
            (Host.gather gather_S50000_S800000x1_S800000_n_0_n_n_0_1_1 (attK comb 129 slices_S50000x130_S50000x1_0_129) (idxOfK v3)))
          (broadcastInDim S800000 ![0] bcast_S1_S800000_0 batt)))))

/-- Per edge: `comb[src, 0:128]` scaled by the gate. -/
def msgK : FVec Ideal S800000x128 .f32 :=
  mulf (Host.gather gather_S50000x128_S800000x1_S800000x128_1_0_n_n_0_1_1128
      (extractStridedSlice S50000x128 ![0, 0] comb slices_S50000x130_S50000x128_0_0) (idxOfK v1))
    (broadcastInDim S800000x128 ![0, 1] bcast_S800000x1_S800000x128_0_1
      (broadcastInDim S800000x1 ![0] bcast_S800000_S800000x1_0 (gateK comb v1 v3 batt)))

theorem gatherEntriesK_apply (y : FVec Ideal S50000 .f32) (idx : IVec S800000x1 32) (e : Fin 800000) :
    Host.gather gather_S50000_S800000x1_S800000_n_0_n_n_0_1_1 y idx (ix1 e) = y (ix1 (nodeOf idx e)) := by
  have h := gather_take gather_S50000_S800000x1_S800000_n_0_n_n_0_1_1 rfl rfl rfl rfl y idx e (by decide)
  rw [ofFin_eq, ofFin_eq] at h
  exact h

theorem gatherRowsK_apply (y : FVec Ideal S50000x128 .f32) (idx : IVec S800000x1 32) (e : Fin 800000) (q : Fin 128) :
    Host.gather gather_S50000x128_S800000x1_S800000x128_1_0_n_n_0_1_1128 y idx (ix2 e q) = y (ix2 (nodeOf idx e) q) :=
  gather_rows_apply (N := 50000) (by decide) gather_S50000x128_S800000x1_S800000x128_1_0_n_n_0_1_1128_wf y idx e q

theorem gateK_apply (e : Fin 800000) :
    gateK comb v1 v3 batt (ix1 e)
      = sigmoid (comb (ix2 (nodeOf (idxOfK v1) e) (⟨128, by decide⟩ : Fin 130))
          + comb (ix2 (nodeOf (idxOfK v3) e) (⟨129, by decide⟩ : Fin 130)) + batt (ix1 (0 : Fin 1))) := by
  show Ideal.div _ (_ + Ideal.exp (-(_ + _ + _))) = _
  exact congrArg sigmoid (congrArg₂ (· + ·) (congrArg₂ (· + ·)
    ((gatherEntriesK_apply _ _ e).trans (attK_apply comb 128 _ _ _ rfl))
    ((gatherEntriesK_apply _ _ e).trans (attK_apply comb 129 _ _ _ rfl)))
    (broadcastInDim_apply _ bcast_S1_S800000_0 batt (ix1 e) (ix1 (0 : Fin 1)) fun | ⟨0, _⟩ => rfl))

variable (x : A2 50000 128)

theorem aff130_msg (p : Fin 50000) (q : Fin 128) (hq : q.val < 130) :
    aff130 x (WcK Wmsg Watt) (bcK bmsg) p ⟨q.val, hq⟩
      = (∑ c : Fin 128, x (ix2 p c) * Wmsg (ix2 c q)) + bmsg (ix1 q) := by
  unfold aff130
  rw [bcK_apply_msg bmsg ⟨q.val, hq⟩ q.isLt]
  exact congrArg (· + _) (Finset.sum_congr rfl fun c _ => by rw [WcK_apply_msg Wmsg Watt c ⟨q.val, hq⟩ q.isLt])

theorem aff130_src (p : Fin 50000) (h : 128 < 130) :
    aff130 x (WcK Wmsg Watt) (bcK bmsg) p ⟨128, h⟩
      = ∑ c : Fin 128, x (ix2 p c) * Watt (ix2 (⟨c.val, by omega⟩ : Fin 256) (0 : Fin 1)) := by
  unfold aff130
  rw [bcK_apply_zero bmsg ⟨128, h⟩ (le_refl _), add_zero]
  exact Finset.sum_congr rfl fun c _ => by rw [WcK_apply_128]

theorem aff130_dst (p : Fin 50000) (h : 129 < 130) :
    aff130 x (WcK Wmsg Watt) (bcK bmsg) p ⟨129, h⟩
      = ∑ c : Fin 128, x (ix2 p c) * Watt (ix2 (⟨128 + c.val, by omega⟩ : Fin 256) (0 : Fin 1)) := by
  unfold aff130
  rw [bcK_apply_zero bmsg ⟨129, h⟩ (by show 128 ≤ 129; omega), add_zero]
  exact Finset.sum_congr rfl fun c _ => by rw [WcK_apply_129]

end Kernel

section Reference
open Cert.ReferenceIdeal Cert.ReferenceIdeal.Facts₀
variable [Cert.ReferenceIdeal.Facts₀] (x : FVec Ideal S50000x128 .f32) (v v1 v3 : IVec S800000 32)
  (Wmsg : FVec Ideal S128x128 .f32) (bmsg : FVec Ideal S128 .f32) (Watt : FVec Ideal S256x1 .f32) (batt : FVec Ideal S1 .f32)

def idxOfR : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Per edge: `sigmoid (x[src] · Watt[0:128] + x[dst] · Watt[128:256] + batt)`. -/
def gateR : FVec Ideal S800000x1 .f32 :=
  Host.divf (broadcastInDim S800000x1 ![] bcast_S_S800000x1 (constant S_ .f32 0x3F800000#32))
    (addf (broadcastInDim S800000x1 ![] bcast_S_S800000x1 (constant S_ .f32 0x3F800000#32))
      (Host.exp (Host.negf
        (addf
          (addf
            (Host.dotGeneral dot_S800000x128_S128x1_S800000x1_1_0_0_1_n_n none
              (Host.gather gather_S50000x128_S800000x1_S800000x128_1_0_n_n_0_1_1128 x (idxOfR v1))
              (extractStridedSlice S128x1 ![0, 0] Watt slices_S256x1_S128x1_0_0))
            (Host.dotGeneral dot_S800000x128_S128x1_S800000x1_1_0_0_1_n_n none
              (Host.gather gather_S50000x128_S800000x1_S800000x128_1_0_n_n_0_1_1128 x (idxOfR v3))
              (extractStridedSlice S128x1 ![128, 0] Watt slices_S256x1_S128x1_128_0)))
          (broadcastInDim S800000x1 ![0, 1] bcast_S1x1_S800000x1_0_1
            (broadcastInDim S1x1 ![1] bcast_S1_S1x1_1 batt))))))

/-- Per edge: `x[src] · Wmsg + bmsg` scaled by the gate. -/
def msgR : FVec Ideal S800000x128 .f32 :=
  mulf
    (addf
      (Host.dotGeneral dot_S800000x128_S128x128_S800000x128_1_0_0_1_n_n none
        (Host.gather gather_S50000x128_S800000x1_S800000x128_1_0_n_n_0_1_1128 x (idxOfR v1)) Wmsg)
      (broadcastInDim S800000x128 ![0, 1] bcast_S1x128_S800000x128_0_1
        (broadcastInDim S1x128 ![1] bcast_S128_S1x128_1 bmsg)))
    (broadcastInDim S800000x128 ![0, 1] bcast_S800000x1_S800000x128_0_1 (gateR x v1 v3 Watt batt))

/-- A product with gathered rows sums over the gathered row. -/
theorem dotR_apply {n : ℕ} (idx : IVec S800000x1 32) (B : FVec Ideal ⟨2, ![128, n]⟩ .f32) (e : Fin 800000) (u : Fin n) :
    Host.dotGeneral (DotDims.plain 800000 128 n) none
      (Host.gather gather_S50000x128_S800000x1_S800000x128_1_0_n_n_0_1_1128 x idx) B (ix2 e u)
      = ∑ c : Fin 128, x (ix2 (nodeOf idx e) c) * B (ix2 c u) :=
  (StackMember.dotGeneral_plain_apply none _ B e u).trans (Finset.sum_congr rfl fun c _ => congrArg (· * _)
    (gather_rows_apply (N := 50000) (by decide) gather_S50000x128_S800000x1_S800000x128_1_0_n_n_0_1_1128_wf x idx e c))

theorem gateR_apply (e : Fin 800000) :
    gateR x v1 v3 Watt batt (ix2 e (0 : Fin 1))
      = sigmoid ((∑ c : Fin 128, x (ix2 (nodeOf (idxOfR v1) e) c) * Watt (ix2 (⟨c.val, by omega⟩ : Fin 256) (0 : Fin 1)))
          + (∑ c : Fin 128, x (ix2 (nodeOf (idxOfR v3) e) c) * Watt (ix2 (⟨128 + c.val, by omega⟩ : Fin 256) (0 : Fin 1)))
          + batt (ix1 (0 : Fin 1))) := by
  show Ideal.div _ (_ + Ideal.exp (-(_ + _ + _))) = _
  exact congrArg sigmoid (congrArg₂ (· + ·) (congrArg₂ (· + ·)
    ((dotR_apply x _ _ e 0).trans (Finset.sum_congr rfl fun c _ => congrArg (_ * ·)
      (slice2_axis0_apply 0 Watt _ c 0 _ (Nat.zero_add _).symm)))
    ((dotR_apply x _ _ e 0).trans (Finset.sum_congr rfl fun c _ => congrArg (_ * ·)
      (slice2_axis0_apply 128 Watt _ c 0 _ rfl))))
    ((broadcastInDim_oneRow_apply _ _ e 0).trans
      (broadcastInDim_apply _ _ batt _ (ix1 (0 : Fin 1)) fun | ⟨0, _⟩ => rfl)))

end Reference

section Both
variable [Cert.KernelIdeal.Facts₀] [Cert.ReferenceIdeal.Facts₀]

/-- An affine map acts row by row, so it commutes with gathering rows. -/
theorem msgK_eq_msgR (x : A2 50000 128) (v1 v3 : IVec ⟨1, ![800000]⟩ 32) (Wmsg : A2 128 128) (bmsg : A1 128)
    (Watt : A2 256 1) (batt : A1 1) (comb : A2 50000 130)
    (hcomb : ∀ (p : Fin 50000) (j : Fin 130), comb (ix2 p j) = aff130 x (WcK Wmsg Watt) (bcK bmsg) p j) :
    msgK comb v1 v3 batt = msgR x v1 v3 Wmsg bmsg Watt batt := by
  funext i
  obtain ⟨e, q, rfl⟩ : ∃ (e : Fin 800000) (q : Fin 128), i = ix2 e q := ⟨i 0, i 1, eq_ix2 i⟩
  show _ * _ = (_ + _) * _
  refine congrArg₂ (· * ·) ?_ ((bcast_rows _ _ _ e q).trans (((congrArg (gateK comb v1 v3 batt) (ofFin_eq e)).trans ?_).trans
    (broadcastInDim_apply _ _ _ (ix2 e q) (ix2 e (0 : Fin 1)) fun | ⟨0, _⟩ => rfl | ⟨1, _⟩ => rfl).symm))
  · rw [gatherRowsK_apply, slice2_axis1_apply 0 comb _ _ q ⟨q.val, by omega⟩ (Nat.zero_add _).symm, hcomb, aff130_msg]
    exact (congrArg₂ (· + ·) (dotR_apply x _ Wmsg e q)
      ((bcast_cols _ _ bmsg e q).trans (congrArg bmsg (ofFin_eq q)))).symm
  · rw [gateK_apply, gateR_apply, hcomb, hcomb, aff130_src, aff130_dst]
    rfl

end Both

end Cert.Alg.Msg

end
-- ==== Proof.KI.FoldB.lean ====
import proofs.«415257_j29506425324200_3_alg».proof.Proof.KI.Run
import proofs.«415257_j29506425324200_3_alg».proof.Proof.KI.Val0
import proofs.«415257_j29506425324200_3_alg».proof.Proof.Spec
import proofs.«415257_j29506425324200_3_alg».proof.Proof.Alg.Msg
import Idealize.ShloMosaic.Lib.StableHlo.Run
import Idealize.ShloMosaic.PureOps.Ideal.Laws

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

theorem V3_main_v55 (c : Dev nD) :
    (V3 m ρ c main_v55 : S128x384.Idx → EReal)
      = transpose S128x384 [1, 0] (m ((c : Thread nD τ).loc main_arg6)) transposes_S384x128_S128x384_1_0 := by
  show StableHlo.after hostOps1 (W2 m ρ c) (Proc.devRef .tc main_v55) = _
  after_results
  exact congrArg (fun x => transpose S128x384 [1, 0] x transposes_S384x128_S128x384_1_0) (W2_kept m ρ c main_arg6 (by decide))

theorem V3_main_v56 (c : Dev nD) :
    (V3 m ρ c main_v56 : S128x384.Idx → EReal)
      = transpose S128x384 [1, 0] (m ((c : Thread nD τ).loc main_arg8)) transposes_S384x128_S128x384_1_0 := by
  show StableHlo.after hostOps1 (W2 m ρ c) (Proc.devRef .tc main_v56) = _
  after_results
  exact congrArg (fun x => transpose S128x384 [1, 0] x transposes_S384x128_S128x384_1_0) (W2_kept m ρ c main_arg8 (by decide))

theorem V3_main_arg0 (c : Dev nD) : V3 m ρ c main_arg0 = m ((c : Thread nD τ).loc main_arg0) := W3_kept m ρ c main_arg0 (by decide)
theorem V3_main_arg7 (c : Dev nD) : V3 m ρ c main_arg7 = m ((c : Thread nD τ).loc main_arg7) := W3_kept m ρ c main_arg7 (by decide)
theorem V3_main_arg9 (c : Dev nD) : V3 m ρ c main_arg9 = m ((c : Thread nD τ).loc main_arg9) := W3_kept m ρ c main_arg9 (by decide)

theorem V1_main_v10 (c : Dev nD) :
    (V1 m ρ c main_v10 : S128x130.Idx → EReal) = Cert.Alg.Msg.WcK (m ((c : Thread nD τ).loc main_arg2)) (m ((c : Thread nD τ).loc main_arg4)) := by
  show StableHlo.after hostOps0 (W0 m ρ c) (Proc.devRef .tc main_v10) = _
  after_results_simp
  try dsimp only [Matrix.cons_val]
  try after_results_simp
  rfl

theorem V1_main_v12 (c : Dev nD) : (V1 m ρ c main_v12 : S130.Idx → EReal) = Cert.Alg.Msg.bcK (m ((c : Thread nD τ).loc main_arg3)) := by
  show StableHlo.after hostOps0 (W0 m ρ c) (Proc.devRef .tc main_v12) = _
  after_results
  rfl

/-- Region 0's output at (p, j): row p of the node features against column j of the combined weight, plus the
    combined bias. -/
theorem comb_apply (c : Dev nD) (p : Fin 50000) (j : Fin 130) :
    (W3 m ρ c (Proc.devRef .tc main_v13) : S50000x130.Idx → EReal) (ix2 p j)
      = aff130 (m ((c : Thread nD τ).loc main_arg0)) (Cert.Alg.Msg.WcK (m ((c : Thread nD τ).loc main_arg2)) (m ((c : Thread nD τ).loc main_arg4)))
          (Cert.Alg.Msg.bcK (m ((c : Thread nD τ).loc main_arg3))) p j := by
  rw [W3_main_v13 m ρ c, val0 (V1 m ρ) c p j, V1_main_v10 m ρ c, V1_main_v12 m ρ c,
    show V1 m ρ c main_arg0 = m ((c : Thread nD τ).loc main_arg0) from W1_kept m ρ c main_arg0 (by decide)]

abbrev srcK (c : Dev nD) : IVec S800000 32 :=
  shapeCast S800000 (extractStridedSlice S1x800000 ![0, 0] (m ((c : Thread nD τ).loc main_arg1)) slices_S2x800000_S1x800000_0_0) shapeCasts_S1x800000_S800000
abbrev dstK (c : Dev nD) : IVec S800000 32 :=
  shapeCast S800000 (extractStridedSlice S1x800000 ![1, 0] (m ((c : Thread nD τ).loc main_arg1)) slices_S2x800000_S1x800000_1_0) shapeCasts_S1x800000_S800000

theorem W2_main_v1 (c : Dev nD) : (W2 m ρ c (Proc.devRef .tc main_v1) : S800000.Idx → BitVec 32) = srcK m c := by
  rw [show W2 m ρ c (Proc.devRef .tc main_v1) = _ from Pipeline.withArrays_of_ne spec0 c _ _ main_v1 (by decide)]
  show StableHlo.after hostOps0 (W0 m ρ c) (Proc.devRef .tc main_v1) = _
  after_results
  rfl
theorem W2_main_v3 (c : Dev nD) : (W2 m ρ c (Proc.devRef .tc main_v3) : S800000.Idx → BitVec 32) = dstK m c := by
  rw [show W2 m ρ c (Proc.devRef .tc main_v3) = _ from Pipeline.withArrays_of_ne spec0 c _ _ main_v3 (by decide)]
  show StableHlo.after hostOps0 (W0 m ρ c) (Proc.devRef .tc main_v3) = _
  after_results
  rfl

theorem V3_main_v54 (c : Dev nD) :
    (V3 m ρ c main_v54 : S50000x128.Idx → EReal)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (dstK m c))
          (Cert.Alg.Msg.msgK (W3 m ρ c (Proc.devRef .tc main_v13)) (srcK m c) (dstK m c) (m ((c : Thread nD τ).loc main_arg5))) := by
  show StableHlo.after hostOps1 (W2 m ρ c) (Proc.devRef .tc main_v54) = _
  after_results_simp
  rw [W2_main_v1 m ρ c, W2_main_v3 m ρ c, W2_kept m ρ c main_arg5 (by decide), W2_arr m ρ c 3]
  rfl

end Cert.KernelIdeal.Val

end
-- ==== Proof.KI.Val1Pay.lean ====
import proofs.«415257_j29506425324200_3_alg».proof.Proof.Gen.KernelIdeal.Skeleton
import proofs.«415257_j29506425324200_3_alg».proof.Proof.Spec
import Idealize.ShloMosaic.Lib.ValueLayout
import Idealize.ShloMosaic.Lib.StackMember

set_option maxRecDepth 16384

noncomputable section

namespace Cert.KernelIdeal.Val

open Cert.KernelIdeal Cert.KernelIdeal.Gen Cert.Spec
open Idealize.ShloMosaic Idealize.ShloMosaic.ValueIdx

def affB (x : FVec Ideal S5000x128 .f32) (W : FVec Ideal S128x384 .f32) (b : FVec Ideal S384 .f32) (p : Fin 5000) (q : Fin 384) : EReal :=
  (∑ k : Fin 128, x (ix2 p k) * W (ix2 k q)) + b (ix1 q)

theorem gate_apply (x : FVec Ideal S5000x128 .f32) (W : FVec Ideal S128x384 .f32) (b : FVec Ideal S384 .f32) (p : Fin 5000) (q : Fin 384) :
    FloatOps.addf (matmul dot_S5000x128_S128x384_S5000x384_1_0_0_1_n_n (some .fp32) x W (constant (F := Ideal) S5000x384 .f32 0x00000000#32) (ix2 p q))
        (broadcastTo S5000x384 (shapeCast S1x384 b shapeCasts_S384_S1x384) broadcasts_S1x384_S5000x384 (ix2 p q))
      = affB x W b p q := by
  rw [matmul_zero_eq_dotGeneral, broadcastTo_1b_ab_apply, shapeCast_a_1a_apply]
  exact congrArg (· + _) (StackMember.dotGeneral_plain_apply (m := 5000) (k := 128) (n := 384) _ x W p q)

def gruB (agg x : FVec Ideal S5000x128 .f32) (Wih : FVec Ideal S128x384 .f32) (bih : FVec Ideal S384 .f32)
    (Whh : FVec Ideal S128x384 .f32) (bhh : FVec Ideal S384 .f32) (p : Fin 5000) (q : Fin 128) : EReal :=
  let r := Ideal.logistic (affB agg Wih bih p ⟨q.val, by omega⟩ + affB x Whh bhh p ⟨q.val, by omega⟩)
  let z := Ideal.logistic (affB agg Wih bih p ⟨128 + q.val, by omega⟩ + affB x Whh bhh p ⟨128 + q.val, by omega⟩)
  let n := Ideal.tanh (affB agg Wih bih p ⟨256 + q.val, by omega⟩ + r * affB x Whh bhh p ⟨256 + q.val, by omega⟩)
  (one - z) * n + z * x (ix2 p q)

/-- Entry `(p, q)` of the stored block is `gruB`. -/
theorem pay5_apply (v3 v5 : FVec Ideal S5000x128 .f32) (v6 : FVec Ideal S128x384 .f32) (v9 : FVec Ideal S384 .f32)
    (v13 : FVec Ideal S128x384 .f32) (v16 : FVec Ideal S384 .f32) (p : Fin 5000) (q : Fin 128) :
    k1_pay5 (F := Ideal) v3 v5 v6 v9 v13 v16 (ix2 p q) = gruB v3 v5 v6 v9 v13 v16 p q := by
  unfold k1_pay5 gruB
  simp only [shapeCast_self]
  simp only [addf, mulf, subf, logistic, tanh, broadcast,
    slice2_axis1_apply 0 _ _ p q (⟨q.val, by omega⟩ : Fin 384) (Nat.zero_add _).symm,
    slice2_axis1_apply 128 _ _ p q (⟨128 + q.val, by omega⟩ : Fin 384) rfl,
    slice2_axis1_apply 256 _ _ p q (⟨256 + q.val, by omega⟩ : Fin 384) rfl, gate_apply]
  rfl

theorem colsum_apply (v : FVec Ideal S5000x128 .f32) (q : Fin 128) :
    multiReduction (F := Ideal) .add [0] S128 v 0x00000000#32 reduces_S5000x128_S128 (.inl rfl) rfl (ix1 q) = ∑ p : Fin 5000, v (ix2 p q) :=
  (Ideal.multiReduction_add_single v _ reduces_S5000x128_S128 _ rfl (ix1 q)).trans
    (Finset.sum_congr rfl fun p _ => congrArg v (funext fun | ⟨0, _⟩ => rfl | ⟨1, _⟩ => rfl))

theorem pay1_apply (v37 : FVec Ideal S5000x128 .f32) (v39 : FVec Ideal S1x128 .f32) (q : Fin 128) :
    k1_pay1 (F := Ideal) v37 v39 (ix2 (0 : Fin 1) q) = v39 (ix2 (0 : Fin 1) q) + ∑ p : Fin 5000, v37 (ix2 p q) := by
  unfold k1_pay1
  rw [shapeCast_self, addf_apply, shapeCast_a_1a_apply, colsum_apply]

theorem pay2_apply (v37 : FVec Ideal S5000x128 .f32) (v45 : FVec Ideal S1x128 .f32) (q : Fin 128) :
    k1_pay2 (F := Ideal) v37 v45 (ix2 (0 : Fin 1) q) = v45 (ix2 (0 : Fin 1) q) + ∑ p : Fin 5000, v37 (ix2 p q) * v37 (ix2 p q) := by
  unfold k1_pay2
  rw [shapeCast_self, addf_apply, shapeCast_a_1a_apply, colsum_apply]
  rfl

theorem pay3_apply (j : S1x128.Idx) : k1_pay3 (F := Ideal) j = 0 := Ideal.ofBits_zero_f32
theorem pay4_apply (j : S1x128.Idx) : k1_pay4 (F := Ideal) j = 0 := Ideal.ofBits_zero_f32

end Cert.KernelIdeal.Val

end
-- ==== Proof.KI.Val1Math.lean ====
import proofs.«415257_j29506425324200_3_alg».proof.Proof.KI.Val1Pay

set_option maxRecDepth 16384

noncomputable section

namespace Cert.KernelIdeal.Val

open Cert.KernelIdeal Cert.KernelIdeal.Gen Cert.Spec
open Idealize.ShloMosaic Idealize.ShloMosaic.ValueIdx

def rowOf (t : ℕ) (ht : t < 10) (r : Fin 5000) : Fin 50000 := ⟨5000 * t + r.val, by omega⟩

theorem gruB_eq_gru (A X : A2 50000 128) (Wih : A2 128 384) (bih : A1 384) (Whh : A2 128 384) (bhh : A1 384)
    (agg x : FVec Ideal S5000x128 .f32) (wih : FVec Ideal S128x384 .f32) (bi : FVec Ideal S384 .f32)
    (whh : FVec Ideal S128x384 .f32) (bh : FVec Ideal S384 .f32) (t : ℕ) (ht : t < 10)
    (hagg : ∀ (r : Fin 5000) (k : Fin 128), agg (ix2 r k) = A (ix2 (rowOf t ht r) k))
    (hx : ∀ (r : Fin 5000) (k : Fin 128), x (ix2 r k) = X (ix2 (rowOf t ht r) k))
    (hwih : wih = Wih) (hbi : bi = bih) (hwhh : whh = Whh) (hbh : bh = bhh) (r : Fin 5000) (q : Fin 128) :
    gruB agg x wih bi whh bh r q = gru A X Wih bih Whh bhh (rowOf t ht r) q := by
  subst hwih hbi hwhh hbh
  unfold gruB gru affB aff384
  simp only [hagg, hx]

def upTo (g : Fin 50000 → EReal) (n : ℕ) : EReal :=
  ∑ t ∈ Finset.range (n + 1), if h : t < 10 then ∑ r : Fin 5000, g (rowOf t h r) else 0

theorem upTo_zero (g : Fin 50000 → EReal) : upTo g 0 = ∑ r : Fin 5000, g (rowOf 0 (by omega) r) := by
  unfold upTo
  rw [Finset.sum_range_one, dif_pos (by omega)]

theorem upTo_succ (g : Fin 50000 → EReal) (n : ℕ) (h : n + 1 < 10) :
    upTo g (n + 1) = upTo g n + ∑ r : Fin 5000, g (rowOf (n + 1) h r) := by
  unfold upTo
  rw [Finset.sum_range_succ _ (n + 1), dif_pos h]

/-- Ten blocks of 5000 rows are the 50000 rows. -/
theorem upTo_nine (g : Fin 50000 → EReal) : upTo g 9 = ∑ p : Fin 50000, g p := by
  unfold upTo
  rw [Finset.sum_range (fun t => if h : t < 10 then ∑ r : Fin 5000, g (rowOf t h r) else 0)]
  rw [← Equiv.sum_comp (finProdFinEquiv : Fin 10 × Fin 5000 ≃ Fin 50000) g, Fintype.sum_prod_type]
  refine Finset.sum_congr rfl fun t _ => ?_
  rw [dif_pos t.isLt]
  refine Finset.sum_congr rfl fun r _ => congrArg g (Fin.ext ?_)
  show 5000 * t.val + r.val = r.val + 5000 * t.val
  omega

end Cert.KernelIdeal.Val

end
-- ==== Proof.KI.Val1Pieces.lean ====
import proofs.«415257_j29506425324200_3_alg».proof.Proof.KI.Reg1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic

variable {F : FTy → Type} [FloatOps F]

theorem hz1_1 : (![0] : Fin 1 → Nat) = fun _ => 0 := funext fun a => by fin_cases a <;> rfl
theorem hz1_2 : (![0, 0] : Fin 2 → Nat) = fun _ => 0 := funext fun a => by fin_cases a <;> rfl

variable (c : Dev nD) (i : grid1.Coords)
  (arg1 : Memref sig .tc .vmem S5000x128 .f32) (harg1 : arg1.IsWhole) (arg2 : Memref sig .tc .vmem S5000x128 .f32) (harg2 : arg2.IsWhole)
  (arg3 : Memref sig .tc .vmem S128x384 .f32) (harg3 : arg3.IsWhole) (arg4 : Memref sig .tc .vmem S384 .f32) (harg4 : arg4.IsWhole)
  (arg5 : Memref sig .tc .vmem S128x384 .f32) (harg5 : arg5.IsWhole) (arg6 : Memref sig .tc .vmem S384 .f32) (harg6 : arg6.IsWhole)
  (arg7 : Memref sig .tc .vmem S5000x128 .f32) (harg7 : arg7.IsWhole) (arg8 : Memref sig .tc .vmem S1x128 .f32) (harg8 : arg8.IsWhole)
  (arg9 : Memref sig .tc .vmem S1x128 .f32) (harg9 : arg9.IsWhole)
  (x0 x1 : Vec F S5000x128 .f32) (x2 : Vec F S128x384 .f32) (x3 : Vec F S384 .f32) (x4 : Vec F S128x384 .f32) (x5 : Vec F S384 .f32)

/-- What each case leaves, as the body's pure terms of the input blocks: the row output at the update; each running sum at the
    column sums of the new rows (of their squares) added to the zero row, or to what it held. -/
theorem out1_eq :
    (∀ hc0, out1_A c i arg1 harg1 arg2 harg2 arg3 harg3 arg4 harg4 arg5 harg5 arg6 harg6 arg7 harg7 arg8 harg8 arg9 harg9 x0 x1 x2 x3 x4 x5 hc0 = (k1_pay5 x0 x1 x2 x3 x4 x5, k1_pay1 (k1_pay5 x0 x1 x2 x3 x4 x5) (k1_pay3 (F := F)), k1_pay2 (k1_pay5 x0 x1 x2 x3 x4 x5) (k1_pay4 (F := F))))
      ∧ ∀ xo7 xo8 hc0, out1_B c i arg1 harg1 arg2 harg2 arg3 harg3 arg4 harg4 arg5 harg5 arg6 harg6 arg7 harg7 arg8 harg8 arg9 harg9 x0 x1 x2 x3 x4 x5 xo7 xo8 hc0 = (k1_pay5 x0 x1 x2 x3 x4 x5, k1_pay1 (k1_pay5 x0 x1 x2 x3 x4 x5) xo7, k1_pay2 (k1_pay5 x0 x1 x2 x3 x4 x5) xo8) := by
  constructor <;> intros
  case' left => unfold out1_A kernelRun1_A
  case' right => unfold out1_B kernelRun1_B
  all_goals
    dsimp only
    sl_unfold_words
    simp only [View.canon_cons_unit_zero (S := S5000x128) hz1_2, View.canon_cons_unit_zero (S := S1x128) hz1_2,
      View.readCov_unit_zero (S := S1x128) _ hz1_2, View.readAt_eq_ld, harg1.read_unread, harg2.read_unread, harg3.read_unread,
      harg4.read_unread, harg5.read_unread, harg6.read_unread, harg8.read_unread, harg9.read_unread,
      View.ld_unit_zero (S := S5000x128) hz1_2, View.ld_unit_zero (S := S128x384) hz1_2, View.ld_unit_zero (S := S384) hz1_1,
      View.ld_unit_zero (S := S1x128) hz1_2]

end Cert.KernelIdeal.Fr

end
-- ==== Proof.KI.Val1.lean ====
import proofs.«415257_j29506425324200_3_alg».proof.Proof.KI.Val1Math
import proofs.«415257_j29506425324200_3_alg».proof.Proof.KI.Val1Pieces
import Idealize.ShloMosaic.Lib.Pipeline.Value

set_option maxRecDepth 16384

noncomputable section

namespace Cert.KernelIdeal.Val

open Cert.KernelIdeal Cert.KernelIdeal.Gen Cert.KernelIdeal.Fr Cert.Spec
open Idealize.ShloMosaic Idealize.ShloMosaic.TcCoe Idealize.ShloMosaic.Tactic Idealize.ShloMosaic.ValueIdx Idealize.SL.Sem
open Idealize.ShloMosaic.Pipeline (Dat)
variable (V : (c : Dev nD) → (b : Ref sig .tc) → Buf (Elt Ideal) ((c : Thread nD τ).loc b)) (c : Dev nD)

abbrev aggA : A2 50000 128 := V c main_v54
abbrev xA : A2 50000 128 := V c main_arg0
abbrev wihA : A2 128 384 := V c main_v55
abbrev bihA : A1 384 := V c main_arg7
abbrev whhA : A2 128 384 := V c main_v56
abbrev bhhA : A1 384 := V c main_arg9

abbrev H (p : Fin 50000) (q : Fin 128) : EReal :=
  gru (aggA V c) (xA V c) (wihA V c) (bihA V c) (whhA V c) (bhhA V c) p q

abbrev aggB (t : Fin cfg1.N) : FVec Ideal S5000x128 .f32 := iblk1 V c 0 t
abbrev xB (t : Fin cfg1.N) : FVec Ideal S5000x128 .f32 := iblk1 V c 1 t
abbrev wihB (t : Fin cfg1.N) : FVec Ideal S128x384 .f32 := iblk1 V c 2 t
abbrev bihB (t : Fin cfg1.N) : FVec Ideal S384 .f32 := iblk1 V c 3 t
abbrev whhB (t : Fin cfg1.N) : FVec Ideal S128x384 .f32 := iblk1 V c 4 t
abbrev bhhB (t : Fin cfg1.N) : FVec Ideal S384 .f32 := iblk1 V c 5 t

abbrev hB (t : Fin cfg1.N) : FVec Ideal S5000x128 .f32 :=
  k1_pay5 (F := Ideal) (aggB V c t) (xB V c t) (wihB V c t) (bihB V c t) (whhB V c t) (bhhB V c t)

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem aggB_apply (t : Fin cfg1.N) (ht : t.val < 10) (r : Fin 5000) (k : Fin 128) :
    aggB V c t (ix2 r k) = aggA V c (ix2 (rowOf t.val ht r) k) := by
  obtain ⟨e0, e1, -, -, -, -, -, -, -, -, -, -, -, -, -, -⟩ := idx1 t
  show iblk1 V c 0 t (ix2 r k) = V c main_v54 _
  unfold iblk1
  rw [View.read_apply]
  show V c main_v54 _ = V c main_v54 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

theorem xB_apply (t : Fin cfg1.N) (ht : t.val < 10) (r : Fin 5000) (k : Fin 128) :
    xB V c t (ix2 r k) = xA V c (ix2 (rowOf t.val ht r) k) := by
  obtain ⟨-, -, e0, e1, -, -, -, -, -, -, -, -, -, -, -, -⟩ := idx1 t
  show iblk1 V c 1 t (ix2 r k) = V c main_arg0 _
  unfold iblk1
  rw [View.read_apply]
  show V c main_arg0 _ = V c main_arg0 _
  congr 1
  funext a
  apply Fin.ext
  match a with
  | ⟨0, _⟩ => show win1_1.index t (0 : Fin 2) * 5000 + 1 * r.val = 5000 * t.val + r.val; rw [e0]; omega
  | ⟨1, _⟩ => show win1_1.index t (1 : Fin 2) * 128 + 1 * k.val = k.val; rw [e1]; omega

theorem wihB_eq (t : Fin cfg1.N) : wihB V c t = wihA V c := by
  obtain ⟨-, -, -, -, e0, e1, -, -, -, -, -, -, -, -, -, -⟩ := idx1 t
  funext j
  show iblk1 V c 2 t j = V c main_v55 j
  unfold iblk1
  rw [View.read_apply]
  show V c main_v55 _ = V c main_v55 j
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 384 + 1 * (j 1).val = (j 1).val; rw [e1]; omega

theorem bihB_eq (t : Fin cfg1.N) : bihB V c t = bihA V c := by
  obtain ⟨-, -, -, -, -, -, e0, -, -, -, -, -, -, -, -, -⟩ := idx1 t
  funext j
  show iblk1 V c 3 t j = V c main_arg7 j
  unfold iblk1
  rw [View.read_apply]
  show V c main_arg7 _ = V c main_arg7 j
  congr 1
  funext a
  apply Fin.ext
  match a with
  | ⟨0, _⟩ => show win1_3.index t (0 : Fin 1) * 384 + 1 * (j 0).val = (j 0).val; rw [e0]; omega

theorem whhB_eq (t : Fin cfg1.N) : whhB V c t = whhA V c := by
  obtain ⟨-, -, -, -, -, -, -, e0, e1, -, -, -, -, -, -, -⟩ := idx1 t
  funext j
  show iblk1 V c 4 t j = V c main_v56 j
  unfold iblk1
  rw [View.read_apply]
  show V c main_v56 _ = V c main_v56 j
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 384 + 1 * (j 1).val = (j 1).val; rw [e1]; omega

theorem bhhB_eq (t : Fin cfg1.N) : bhhB V c t = bhhA V c := by
  obtain ⟨-, -, -, -, -, -, -, -, -, e0, -, -, -, -, -, -⟩ := idx1 t
  funext j
  show iblk1 V c 5 t j = V c main_arg9 j
  unfold iblk1
  rw [View.read_apply]
  show V c main_arg9 _ = V c main_arg9 j
  congr 1
  funext a
  apply Fin.ext
  match a with
  | ⟨0, _⟩ => show win1_5.index t (0 : Fin 1) * 384 + 1 * (j 0).val = (j 0).val; rw [e0]; omega

theorem hB_apply (t : Fin cfg1.N) (ht : t.val < 10) (r : Fin 5000) (q : Fin 128) :
    hB V c t (ix2 r q) = H V c (rowOf t.val ht r) q :=
  (pay5_apply (aggB V c t) (xB V c t) (wihB V c t) (bihB V c t) (whhB V c t) (bhhB V c t) r q).trans
    (gruB_eq_gru (aggA V c) (xA V c) (wihA V c) (bihA V c) (whhA V c) (bhhA V c)
      (aggB V c t) (xB V c t) (wihB V c t) (bihB V c t) (whhB V c t) (bhhB V c t) t.val ht
      (aggB_apply V c t ht) (xB_apply V c t ht) (wihB_eq V c t) (bihB_eq V c t) (whhB_eq V c t) (bhhB_eq V c t) r q)

/-- What a point leaves in the three buffers, as the body's terms of the stored block and of the running rows it started from. -/
theorem outA_eq (t : Fin cfg1.N) (h0 : t.val % 10 = 0) :
    outA V c t h0 = (hB V c t, k1_pay1 (hB V c t) (k1_pay3 (F := Ideal)), k1_pay2 (hB V c t) (k1_pay4 (F := Ideal))) :=
  (out1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t)).1 ((hcond1_0 t).mpr h0)

theorem outB_eq (t : Fin cfg1.N) (h0 : ¬t.val % 10 = 0) (p : Vec Ideal S1x128 .f32 × Vec Ideal S1x128 .f32) :
    outB V c t h0 p = (hB V c t, k1_pay1 (hB V c t) p.1, k1_pay2 (hB V c t) p.2) := by
  unfold outB
  exact (out1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t)).2 p.1 p.2 _

theorem after6_eq (t : Fin cfg1.N) : (outsAt1 V c t.val t.isLt).1 = hB V c t := by
  by_cases h0 : t.val % 10 = 0
  · rw [outsAt1_A V c t h0, outA_eq]
  · rw [outsAt1_B V c t h0, outB_eq]

/-- The two running rows after point n, at column q: the sums of the update and of its square over the rows of blocks 0 to n. -/
theorem run_apply : ∀ (n : ℕ) (h : n < cfg1.N) (q : Fin 128),
    (outsAt1 V c n h).2.1 (ix2 (0 : Fin 1) q) = upTo (fun p => H V c p q) n
      ∧ (outsAt1 V c n h).2.2 (ix2 (0 : Fin 1) q) = upTo (fun p => H V c p q * H V c p q) n
  | 0, h, q => by
    have e : outsAt1 V c 0 h = outA V c ⟨0, h⟩ (Nat.zero_mod 10) := outsAt1_A V c ⟨0, h⟩ _
    rw [e, outA_eq]
    dsimp only
    rw [pay1_apply, pay2_apply, pay3_apply, pay4_apply, zero_add, zero_add, upTo_zero, upTo_zero]
    simp only [hB_apply V c ⟨0, h⟩ (Nat.zero_lt_succ 9), and_self]
  | n + 1, h, q => by
    have hlt : n + 1 < 10 := lt_of_lt_of_eq h N_1
    have h0 : ¬(n + 1) % 10 = 0 := by omega
    have e : outsAt1 V c (n + 1) h = outB V c ⟨n + 1, h⟩ h0 (outsAt1 V c n (Nat.lt_of_succ_lt h)).2 := outsAt1_B V c ⟨n + 1, h⟩ h0
    obtain ⟨e7, e8⟩ := run_apply n (Nat.lt_of_succ_lt h) q
    rw [e, outB_eq]
    dsimp only
    rw [pay1_apply, pay2_apply, e7, e8, upTo_succ _ n hlt, upTo_succ _ n hlt]
    simp only [hB_apply V c ⟨n + 1, h⟩ hlt, and_self]

abbrev G6 : A2 50000 128 := fun i => H V c ⟨(i 0).val, idx2_lt0 i⟩ ⟨(i 1).val, idx2_lt1 i⟩
abbrev G7 : A2 1 128 := fun i => ∑ p : Fin 50000, H V c p ⟨(i 1).val, idx2_lt1 i⟩
abbrev G8 : A2 1 128 := fun i => ∑ p : Fin 50000, H V c p ⟨(i 1).val, idx2_lt1 i⟩ * H V c p ⟨(i 1).val, idx2_lt1 i⟩

theorem hB_eq_G6 (t : Fin cfg1.N) (ht : t.val < 10) (j : S5000x128.Idx) (i : S50000x128.Idx)
    (h0 : (i 0).val = 5000 * t.val + (j 0).val) (h1 : (i 1).val = (j 1).val) : hB V c t j = G6 V c i := by
  obtain ⟨r, q, rfl⟩ : ∃ (r : Fin 5000) (q : Fin 128), j = ix2 r q := ⟨j 0, j 1, eq_ix2 j⟩
  refine (hB_apply V c t ht r q).trans ?_
  show H V c _ _ = H V c _ _
  congr 1
  · exact Fin.ext h0.symm
  · exact Fin.ext h1.symm

theorem flushed6_eq (t : Fin cfg1.N) :
    (dat1 V c).flushed 6 t = ((cfg1.win 6).blk t).view.read (Elt Ideal) (G6 V c) := by
  have hN : cfg1.N = 10 := N_1
  have ht : t.val < 10 := by have := t.isLt; omega
  obtain ⟨-, -, -, -, -, -, -, -, -, -, e0, e1, -, -, -, -⟩ := idx1 t
  show (cfg1.win 6).cut (grid1.coords t) (outsAt1 V c t.val t.isLt).1 = _
  rw [after6_eq]
  funext j
  show hB V c t ((cfg1.win 6).xinj (grid1.coords t) j) = G6 V c (((cfg1.win 6).blk t).view.emb j)
  refine hB_eq_G6 V c t ht _ _ ?_ ?_
  · show win1_6.index t (0 : Fin 2) * 5000 + 1 * (j 0).val = 5000 * t.val + (j 0).val; rw [e0]; omega
  · show win1_6.index t (1 : Fin 2) * 128 + 1 * (j 1).val = (j 1).val; rw [e1]; omega

theorem cover6 (i : S50000x128.Idx) : ∃ t : Fin cfg1.N, (cfg1.win 6).flush t = true ∧ i ∈ ((cfg1.win 6).blk t).view.set := by
  have hN : cfg1.N = 10 := N_1
  have hi0 : (i 0).val < 50000 := idx2_lt0 i
  have hi1 : (i 1).val < 128 := idx2_lt1 i
  have hlt : (i 0).val / 5000 < cfg1.N := by rw [hN]; omega
  obtain ⟨-, -, -, -, -, -, -, -, -, -, e0, e1, -, -, -, -⟩ := idx1 ⟨(i 0).val / 5000, hlt⟩
  refine ⟨⟨(i 0).val / 5000, hlt⟩, flush1_6 _, ?_⟩
  show i ∈ ((View.whole main_v57_0).slice (win1_6.rect ⟨(i 0).val / 5000, hlt⟩)).set
  rw [View.set_slice_whole, Rect.mem_set_unit]
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e1]; omega

theorem final6 : (dat1 V c).arrAt 6 cfg1.N = G6 V c :=
  (dat1 V c).arrAt_eq_of_cover 6 (G6 V c) (fun t _ => flushed6_eq V c t) cover6

theorem flushed7_eq (t : Fin cfg1.N) (hf : (cfg1.win 7).flush t = true) :
    (dat1 V c).flushed 7 t = ((cfg1.win 7).blk t).view.read (Elt Ideal) (G7 V c) := by
  have hN : cfg1.N = 10 := N_1
  have h9 : t.val = 9 := by have := (flush1_7 t).mp hf; have := t.isLt; omega
  obtain rfl : t = t1_9 := Fin.ext h9
  show (cfg1.win 7).cut (grid1.coords t1_9) (outsAt1 V c 9 t1_9.isLt).2.1 = _
  have hz' : (fun a => win1_7.index t1_9 a * main_v57_1.ty.shape.size a) = fun _ => 0 := funext fun a => by fin_cases a <;> decide
  refine Eq.trans ?_ (Memref.read_access_unit_zero (Elt Ideal) main_v57_1 hz' (fun a => by rw [congrFun hz' a]; simp) (G7 V c)).symm
  funext j
  obtain ⟨z, q, rfl⟩ : ∃ (z : Fin 1) (q : Fin 128), j = ix2 z q := ⟨j 0, j 1, eq_ix2 j⟩
  obtain rfl : z = 0 := Subsingleton.elim _ _
  show (outsAt1 V c 9 t1_9.isLt).2.1 (ix2 (0 : Fin 1) q) = _
  rw [(run_apply V c 9 t1_9.isLt q).1]
  exact upTo_nine _

/-- Every index of a one-row output is in the block of the last point. -/
theorem mem_row (i : S1x128.Idx) : i ∈ (win1_7.rect t1_9).set := by
  rw [Rect.mem_set_unit]
  intro a
  have h0 : (i 0 : Nat) < 1 := idx2_lt0 i
  have h1 : (i 1 : Nat) < 128 := idx2_lt1 i
  match a with
  | ⟨0, _⟩ => show win1_7.index t1_9 0 * win1_7.size 0 ≤ (i 0 : Nat) ∧ (i 0 : Nat) < win1_7.index t1_9 0 * win1_7.size 0 + win1_7.xsize (grid1.coords t1_9) 0
              rw [show win1_7.index t1_9 0 * win1_7.size 0 = 0 from by decide +kernel, show win1_7.xsize (grid1.coords t1_9) 0 = 1 from by decide +kernel]; omega
  | ⟨1, _⟩ => show win1_7.index t1_9 1 * win1_7.size 1 ≤ (i 1 : Nat) ∧ (i 1 : Nat) < win1_7.index t1_9 1 * win1_7.size 1 + win1_7.xsize (grid1.coords t1_9) 1
              rw [show win1_7.index t1_9 1 * win1_7.size 1 = 0 from by decide +kernel, show win1_7.xsize (grid1.coords t1_9) 1 = 128 from by decide +kernel]; omega

theorem cover7 (i : S1x128.Idx) : ∃ t : Fin cfg1.N, (cfg1.win 7).flush t = true ∧ i ∈ ((cfg1.win 7).blk t).view.set := by
  refine ⟨t1_9, (flush1_7 t1_9).mpr rfl, ?_⟩
  show i ∈ ((View.whole main_v57_1).slice (win1_7.rect t1_9)).set
  rw [View.set_slice_whole]
  exact mem_row i

theorem final7 : (dat1 V c).arrAt 7 cfg1.N = G7 V c :=
  (dat1 V c).arrAt_eq_of_cover 7 (G7 V c) (flushed7_eq V c) cover7

theorem flushed8_eq (t : Fin cfg1.N) (hf : (cfg1.win 8).flush t = true) :
    (dat1 V c).flushed 8 t = ((cfg1.win 8).blk t).view.read (Elt Ideal) (G8 V c) := by
  have hN : cfg1.N = 10 := N_1
  have h9 : t.val = 9 := by have := (flush1_8 t).mp hf; have := t.isLt; omega
  obtain rfl : t = t1_9 := Fin.ext h9
  show (cfg1.win 8).cut (grid1.coords t1_9) (outsAt1 V c 9 t1_9.isLt).2.2 = _
  have hz' : (fun a => win1_8.index t1_9 a * main_v57_2.ty.shape.size a) = fun _ => 0 := funext fun a => by fin_cases a <;> decide
  refine Eq.trans ?_ (Memref.read_access_unit_zero (Elt Ideal) main_v57_2 hz' (fun a => by rw [congrFun hz' a]; simp) (G8 V c)).symm
  funext j
  obtain ⟨z, q, rfl⟩ : ∃ (z : Fin 1) (q : Fin 128), j = ix2 z q := ⟨j 0, j 1, eq_ix2 j⟩
  obtain rfl : z = 0 := Subsingleton.elim _ _
  show (outsAt1 V c 9 t1_9.isLt).2.2 (ix2 (0 : Fin 1) q) = _
  rw [(run_apply V c 9 t1_9.isLt q).2]
  exact upTo_nine _

theorem cover8 (i : S1x128.Idx) : ∃ t : Fin cfg1.N, (cfg1.win 8).flush t = true ∧ i ∈ ((cfg1.win 8).blk t).view.set := by
  refine ⟨t1_9, (flush1_8 t1_9).mpr rfl, ?_⟩
  show i ∈ ((View.whole main_v57_2).slice (win1_7.rect t1_9)).set
  rw [View.set_slice_whole]
  exact mem_row i

theorem final8 : (dat1 V c).arrAt 8 cfg1.N = G8 V c :=
  (dat1 V c).arrAt_eq_of_cover 8 (G8 V c) (flushed8_eq V c) cover8

theorem hidden_apply (p : Fin 50000) (q : Fin 128) :
    (dat1 (F := Ideal) V c).arrAt 6 cfg1.N (ix2 p q)
      = gru (V c main_v54) (V c main_arg0) (V c main_v55) (V c main_arg7) (V c main_v56) (V c main_arg9) p q :=
  congrFun (final6 V c) (ix2 p q)

theorem sum_apply (q : Fin 128) :
    (dat1 (F := Ideal) V c).arrAt 7 cfg1.N (ix2 (0 : Fin 1) q)
      = ∑ p : Fin 50000, gru (V c main_v54) (V c main_arg0) (V c main_v55) (V c main_arg7) (V c main_v56) (V c main_arg9) p q :=
  congrFun (final7 V c) (ix2 (0 : Fin 1) q)

theorem sumsq_apply (q : Fin 128) :
    (dat1 (F := Ideal) V c).arrAt 8 cfg1.N (ix2 (0 : Fin 1) q)
      = ∑ p : Fin 50000, gru (V c main_v54) (V c main_arg0) (V c main_v55) (V c main_arg7) (V c main_v56) (V c main_arg9) p q
          * gru (V c main_v54) (V c main_arg0) (V c main_v55) (V c main_arg7) (V c main_v56) (V c main_arg9) p q :=
  congrFun (final8 V c) (ix2 (0 : Fin 1) q)

end Cert.KernelIdeal.Val

end
-- ==== Proof.KI.Val2.lean ====
import proofs.«415257_j29506425324200_3_alg».proof.Proof.KI.Reg2
import proofs.«415257_j29506425324200_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr Cert.Spec
open Idealize.ShloMosaic Idealize.ShloMosaic.ValueIdx Idealize.ShloMosaic.TcCoe Idealize.SL.Sem
open Idealize.ShloMosaic.Pipeline (Dat)

theorem k2_pay1_apply (h : Vec Ideal S5000x128 .f32) (var : Vec Ideal S1x128 .f32) (g : Vec Ideal S128 .f32)
    (mu : Vec Ideal S1x128 .f32) (b : Vec Ideal S128 .f32) (p : Fin 5000) (q : Fin 128) :
    k2_pay1 (F := Ideal) h var g mu b (ix2 p q)
      = bn (g (ix1 q)) (h (ix2 p q)) (mu (ix2 (0 : Fin 1) q)) (var (ix2 (0 : Fin 1) q)) (b (ix1 q)) := by
  unfold k2_pay1 bn
  simp only [shapeCast_self]
  refine congrArg₂ (· + ·) (congrArg₂ (· * ·) (congrArg₂ (· * ·) ?_ (congrArg₂ (· - ·) rfl ?_)) ?_) ?_
  · exact (broadcastTo_1b_ab_apply _ _ p q).trans (shapeCast_a_1a_apply g _ 0 q)
  · exact broadcastTo_1b_ab_apply mu _ p q
  · exact (broadcastTo_1b_ab_apply _ _ p q).trans rfl
  · exact (broadcastTo_1b_ab_apply _ _ p q).trans (shapeCast_a_1a_apply b _ 0 q)

section
variable (V : (c : Dev nD) → (b : Ref sig .tc) → Buf (Elt Ideal) ((c : Thread nD τ).loc b))

theorem zeros2_r2 : (![0, 0] : Fin 2 → Nat) = fun _ => 0 := by decide
theorem zeros1_r2 : (![0] : Fin 1 → Nat) = fun _ => 0 := by decide

theorem idx_facts2 : ∀ t : Fin cfg2.N, win2_0.index t (0 : Fin 2) = t.val ∧ win2_0.index t (1 : Fin 2) = 0
    ∧ win2_5.index t (0 : Fin 2) = t.val ∧ win2_5.index t (1 : Fin 2) = 0 :=
  (by decide +kernel : ∀ t : Fin grid2.N, _)

theorem hblk2_apply (c : Dev nD) (t : Fin cfg2.N) (p : Fin 5000) (k : Fin 128) (P : Fin 50000) (hP : P.val = t.val * 5000 + p.val) :
    (iblk2 V c 0 t : Vec Ideal S5000x128 .f32) (ix2 p k) = (V c main_v57_0 : A2 50000 128) (ix2 P k) := by
  obtain ⟨e0, e1, -⟩ := idx_facts2 t
  refine (View.read_apply ..).trans (congrArg (V c main_v57_0) (funext fun a => Fin.ext ?_))
  match a with
  | ⟨0, _⟩ => show win2_0.index t (0 : Fin 2) * 5000 + 1 * p.val = P.val; omega
  | ⟨1, _⟩ => show win2_0.index t (1 : Fin 2) * 128 + 1 * k.val = k.val; omega

theorem mblk2_apply (c : Dev nD) (t : Fin cfg2.N) (y : S1x128.Idx) : (iblk2 V c 1 t : Vec Ideal S1x128 .f32) y = (V c main_v59 : A2 1 128) y :=
  (View.read_apply ..).trans (congrArg (V c main_v59) (funext fun a => Fin.ext (win2_1.rect_emb_val_of_index_zero t a ((by decide +kernel : ∀ t : Fin grid2.N, ∀ a, win2_1.index t a = 0) t a) y)))

theorem vblk2_apply (c : Dev nD) (t : Fin cfg2.N) (y : S1x128.Idx) : (iblk2 V c 2 t : Vec Ideal S1x128 .f32) y = (V c main_v63 : A2 1 128) y :=
  (View.read_apply ..).trans (congrArg (V c main_v63) (funext fun a => Fin.ext (win2_2.rect_emb_val_of_index_zero t a ((by decide +kernel : ∀ t : Fin grid2.N, ∀ a, win2_2.index t a = 0) t a) y)))

theorem gblk2_apply (c : Dev nD) (t : Fin cfg2.N) (y : S128.Idx) : (iblk2 V c 3 t : Vec Ideal S128 .f32) y = (V c main_arg10 : A1 128) y :=
  (View.read_apply ..).trans (congrArg (V c main_arg10) (funext fun a => Fin.ext (win2_3.rect_emb_val_of_index_zero t a ((by decide +kernel : ∀ t : Fin grid2.N, ∀ a, win2_3.index t a = 0) t a) y)))

theorem oblk2_apply (c : Dev nD) (t : Fin cfg2.N) (y : S128.Idx) : (iblk2 V c 4 t : Vec Ideal S128 .f32) y = (V c main_arg11 : A1 128) y :=
  (View.read_apply ..).trans (congrArg (V c main_arg11) (funext fun a => Fin.ext (win2_4.rect_emb_val_of_index_zero t a ((by decide +kernel : ∀ t : Fin grid2.N, ∀ a, win2_4.index t a = 0) t a) y)))

def bnAt (H : A2 50000 128) (M Vr : A2 1 128) (g b : A1 128) (p : Fin 50000) (q : Fin 128) : EReal :=
  bn (g (ix1 q)) (H (ix2 p q)) (M (ix2 (0 : Fin 1) q)) (Vr (ix2 (0 : Fin 1) q)) (b (ix1 q))

theorem blk2_point (c : Dev nD) (t : Fin cfg2.N) (j : S5000x128.Idx) (P : Fin 50000) (Q : Fin 128) (hP : P.val = t.val * 5000 + (j 0).val) (hQ : Q.val = (j 1).val) :
    k2_pay1 (F := Ideal) (iblk2 V c 0 t) (iblk2 V c 2 t) (iblk2 V c 3 t) (iblk2 V c 1 t) (iblk2 V c 4 t) j
      = bnAt (V c main_v57_0) (V c main_v59) (V c main_v63) (V c main_arg10) (V c main_arg11) P Q := by
  obtain ⟨p, q, rfl⟩ : ∃ (p : Fin 5000) (q : Fin 128), j = ix2 p q := ⟨j 0, j 1, eq_ix2 j⟩
  obtain rfl : Q = q := Fin.ext hQ
  rw [k2_pay1_apply, hblk2_apply V c t p Q P hP, mblk2_apply, vblk2_apply, gblk2_apply, oblk2_apply]
  rfl

def G2 (c : Dev nD) : S50000x128.Idx → EReal := fun i =>
  bnAt (V c main_v57_0) (V c main_v59) (V c main_v63) (V c main_arg10) (V c main_arg11) (i 0) (i 1)

theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  dsimp only [dat2]
  unfold out2_5
  rw [View.canon_unit_zero zeros2_r2]
  simp only [View.ld_unit_zero (S := S5000x128) zeros2_r2, View.ld_unit_zero (S := S1x128) zeros2_r2, View.ld_unit_zero (S := S128) zeros1_r2]
  obtain ⟨-, -, e8, e9⟩ := idx_facts2 t
  funext j
  show k2_pay1 (F := Ideal) (iblk2 V c 0 t) (iblk2 V c 2 t) (iblk2 V c 3 t) (iblk2 V c 1 t) (iblk2 V c 4 t) j = G2 V c (((cfg2.win 5).blk t).view.emb j)
  unfold G2
  refine blk2_point V c t j _ _ ?_ ?_
  · show win2_5.index t (0 : Fin 2) * 5000 + 1 * (j 0).val = t.val * 5000 + (j 0).val; omega
  · show win2_5.index t (1 : Fin 2) * 128 + 1 * (j 1).val = (j 1).val; omega

theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨_, by omega⟩, rfl⟩
  obtain ⟨-, -, e8, e9⟩ := idx_facts2 t
  refine ⟨t, flush2_5 t, ?_⟩
  show i ∈ ((View.whole main_v64).slice (win2_5.rect t)).set
  rw [View.set_slice_whole, Rect.mem_set_unit]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

theorem val2 (c : Dev nD) (p : Fin 50000) (q : Fin 128) :
    (dat2 (F := Ideal) V c).arrAt 5 cfg2.N (ix2 p q)
      = bn ((V c main_arg10 : A1 128) (ix1 q)) ((V c main_v57_0 : A2 50000 128) (ix2 p q)) ((V c main_v59 : A2 1 128) (ix2 (0 : Fin 1) q))
          ((V c main_v63 : A2 1 128) (ix2 (0 : Fin 1) q)) ((V c main_arg11 : A1 128) (ix1 q)) :=
  congrFun ((dat2 V c).arrAt_eq_of_cover 5 (G2 V c) (fun t _ => flushed2_eq V c t) cover2) (ix2 p q)

end

end Cert.KernelIdeal.Val

end
-- ==== Proof.KI.Out.lean ====
import proofs.«415257_j29506425324200_3_alg».proof.Proof.KI.FoldA
import proofs.«415257_j29506425324200_3_alg».proof.Proof.KI.FoldB
import proofs.«415257_j29506425324200_3_alg».proof.Proof.KI.Val1
import proofs.«415257_j29506425324200_3_alg».proof.Proof.KI.Val2

noncomputable section

namespace Cert.KernelIdeal.Val

open Cert.KernelIdeal Cert.KernelIdeal.Gen Cert.KernelIdeal.Fr Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The node features after the recurrent update, over the launch memory. -/
def Hk (c : Dev nD) (p : Fin 50000) (q : Fin 128) : EReal :=
  gru (V3 m ρ c main_v54) (m ((c : Thread nD τ).loc main_arg0))
    (transpose S128x384 [1, 0] (m ((c : Thread nD τ).loc main_arg6)) transposes_S384x128_S128x384_1_0) (m ((c : Thread nD τ).loc main_arg7))
    (transpose S128x384 [1, 0] (m ((c : Thread nD τ).loc main_arg8)) transposes_S384x128_S128x384_1_0) (m ((c : Thread nD τ).loc main_arg9)) p q

theorem gru_entry (c : Dev nD) (p : Fin 50000) (q : Fin 128) :
    gru (V3 m ρ c main_v54) (V3 m ρ c main_arg0) (V3 m ρ c main_v55) (V3 m ρ c main_arg7) (V3 m ρ c main_v56) (V3 m ρ c main_arg9) p q
      = Hk m ρ c p q := by
  unfold Hk
  rw [V3_main_arg0 m ρ c, V3_main_arg7 m ρ c, V3_main_arg9 m ρ c, V3_main_v55 m ρ c, V3_main_v56 m ρ c]

theorem kernel_out (c : Dev nD) (p : Fin 50000) (q : Fin 128) :
    (W6 m ρ c (Proc.devRef .tc main_v64) : S50000x128.Idx → EReal) (ix2 p q)
      = bn (m ((c : Thread nD τ).loc main_arg10) (ix1 q)) (Hk m ρ c p q) (Ideal.div (∑ p : Fin 50000, Hk m ρ c p q) cN)
          (Ideal.div (∑ p : Fin 50000, Hk m ρ c p q * Hk m ρ c p q) cN
            - Ideal.div (∑ p : Fin 50000, Hk m ρ c p q) cN * Ideal.div (∑ p : Fin 50000, Hk m ρ c p q) cN)
          (m ((c : Thread nD τ).loc main_arg11) (ix1 q)) :=
  out_formula m ρ c (Hk m ρ c) (val2 (V5 m ρ) c)
    (fun p q => (hidden_apply (V3 m ρ) c p q).trans (gru_entry m ρ c p q))
    (fun q => by simp only [sum_apply (V3 m ρ) c q, gru_entry m ρ c])
    (fun q => by simp only [sumsq_apply (V3 m ρ) c q, gru_entry m ρ c]) p q

end Cert.KernelIdeal.Val

end
-- ==== Proof.Alg.RefGru.lean ====
import proofs.«415257_j29506425324200_3_alg».proof.ReferenceIdeal
import proofs.«415257_j29506425324200_3_alg».proof.Proof.Spec
import Idealize.ShloMosaic.Lib.ValueLayout
import Idealize.ShloMosaic.Lib.StackMember

noncomputable section

namespace Cert.Alg.Ref

open Idealize.ShloMosaic Idealize.ShloMosaic.ValueIdx
open Cert.ReferenceIdeal Cert.ReferenceIdeal.Facts₀

variable [Cert.ReferenceIdeal.Facts]

theorem dot_apply (a : FVec Ideal S50000x128 .f32) (W : FVec Ideal S128x384 .f32) (p : Fin 50000) (c : Fin 384) :
    Host.dotGeneral dot_S50000x128_S128x384_S50000x384_1_0_0_1_n_n none a W (ix2 p c)
      = ∑ k : Fin 128, a (ix2 p k) * W (ix2 k c) :=
  StackMember.dotGeneral_plain_apply (m := 50000) (k := 128) (n := 384) none a W p c

def refAff (a : FVec Ideal S50000x128 .f32) (W : FVec Ideal S384x128 .f32) (b : FVec Ideal S384 .f32) :
    FVec Ideal S50000x384 .f32 :=
  addf
    (Host.dotGeneral dot_S50000x128_S128x384_S50000x384_1_0_0_1_n_n none a
      (transpose S128x384 [1, 0] W transposes_S384x128_S128x384_1_0))
    (broadcastInDim S50000x384 ![0, 1] bcast_S1x384_S50000x384_0_1 (broadcastInDim S1x384 ![1] bcast_S384_S1x384_1 b))

theorem refAff_apply (a : FVec Ideal S50000x128 .f32) (W : FVec Ideal S384x128 .f32) (b : FVec Ideal S384 .f32)
    (p : Fin 50000) (c : Fin 384) :
    refAff a W b (ix2 p c)
      = Cert.Spec.aff384 a (transpose S128x384 [1, 0] W transposes_S384x128_S128x384_1_0) b p c := by
  unfold refAff Cert.Spec.aff384
  rw [addf_apply, dot_apply,
    broadcastInDim_apply _ _ _ (ix2 p c) (ix2 (0 : Fin 1) c) (fun ax => by
      match ax with
      | ⟨0, _⟩ => rfl
      | ⟨1, _⟩ => rfl),
    broadcastInDim_apply _ _ _ (ix2 (0 : Fin 1) c) (ix1 c) (fun ax => by
      match ax with
      | ⟨0, _⟩ => rfl)]

theorem slice_refAff (o : Nat) (h : S50000x384.Slices ![0, o] S50000x128) (a : FVec Ideal S50000x128 .f32)
    (W : FVec Ideal S384x128 .f32) (b : FVec Ideal S384 .f32) (p : Fin 50000) (q : Fin 128) (c : Fin 384)
    (hc : c.val = o + q.val) :
    extractStridedSlice S50000x128 ![0, o] (refAff a W b) h (ix2 p q)
      = Cert.Spec.aff384 a (transpose S128x384 [1, 0] W transposes_S384x128_S128x384_1_0) b p c :=
  (slice2_axis1_apply o _ h p q c hc).trans (refAff_apply a W b p c)

def refH (agg x : FVec Ideal S50000x128 .f32) (Wih : FVec Ideal S384x128 .f32) (bih : FVec Ideal S384 .f32)
    (Whh : FVec Ideal S384x128 .f32) (bhh : FVec Ideal S384 .f32) : FVec Ideal S50000x128 .f32 :=
  let v45 := refAff agg Wih bih
  let v50 := refAff x Whh bhh
  let v51 := extractStridedSlice S50000x128 ![0, 0] v45 slices_S50000x384_S50000x128_0_0
  let v52 := extractStridedSlice S50000x128 ![0, 128] v45 slices_S50000x384_S50000x128_0_128
  let v53 := extractStridedSlice S50000x128 ![0, 256] v45 slices_S50000x384_S50000x128_0_256
  let v54 := extractStridedSlice S50000x128 ![0, 0] v50 slices_S50000x384_S50000x128_0_0
  let v55 := extractStridedSlice S50000x128 ![0, 128] v50 slices_S50000x384_S50000x128_0_128
  let v56 := extractStridedSlice S50000x128 ![0, 256] v50 slices_S50000x384_S50000x128_0_256
  let ones : FVec Ideal S50000x128 .f32 :=
    broadcastInDim S50000x128 ![] bcast_S_S50000x128 (constant S_ .f32 0x3F800000#32)
  let v63 := Host.divf ones (addf ones (Host.exp (Host.negf (addf v51 v54))))
  let v70 := Host.divf ones (addf ones (Host.exp (Host.negf (addf v52 v55))))
  let v73 := Host.tanh (addf v53 (mulf v63 v56))
  addf (mulf (subf ones v70) v73) (mulf v70 x)

theorem ofBits_one : Ideal.ofBits .f32 0x3F800000#32 = 1 := IdealRules.sign_bit.ideal_onePat .f32

/-- Entry `(p, q)` is `gru` over the transposed weights. -/
theorem refH_apply (agg x : FVec Ideal S50000x128 .f32) (Wih : FVec Ideal S384x128 .f32) (bih : FVec Ideal S384 .f32)
    (Whh : FVec Ideal S384x128 .f32) (bhh : FVec Ideal S384 .f32) (p : Fin 50000) (q : Fin 128) :
    refH agg x Wih bih Whh bhh (ix2 p q)
      = Cert.Spec.gru agg x (transpose S128x384 [1, 0] Wih transposes_S384x128_S128x384_1_0) bih
          (transpose S128x384 [1, 0] Whh transposes_S384x128_S128x384_1_0) bhh p q := by
  simp only [refH, Cert.Spec.gru, addf, mulf, subf, Host.divf, Host.exp, Host.negf, Host.tanh, broadcastInDim, constant,
    Ideal.addf_def, Ideal.mulf_def, Ideal.subf_def, Ideal.hostDivf_def, Ideal.hostUnary_exp_def,
    Ideal.hostUnary_tanh_def, Ideal.hostNegf_def, Ideal.negf_def, Ideal.ofBits_def,
    slice_refAff 0 _ _ _ _ p q (⟨q.val, by omega⟩ : Fin 384) (Nat.zero_add _).symm,
    slice_refAff 128 _ _ _ _ p q (⟨128 + q.val, by omega⟩ : Fin 384) rfl,
    slice_refAff 256 _ _ _ _ p q (⟨256 + q.val, by omega⟩ : Fin 384) rfl,
    Cert.Spec.one, Ideal.logistic, ofBits_one]

end Cert.Alg.Ref

end
-- ==== Proof.Alg.Var.lean ====
import proofs.«415257_j29506425324200_3_alg».proof.Proof.Spec
import Idealize.ShloMosaic.PureOps.Ideal.Laws

noncomputable section

namespace Cert.Alg

open Idealize.ShloMosaic Idealize.ShloMosaic.ValueIdx Cert.Spec

theorem ofBits_50000 : Ideal.ofBits .f32 0x47435000#32 = ((50000 : ℝ) : EReal) := by
  simp [Ideal.ofBits, Ideal.ieee, -EReal.coe_mul]; norm_num

theorem one_eq : Cert.Spec.one = ((1 : ℝ) : EReal) := by
  unfold Cert.Spec.one
  simp [Ideal.ofBits, Ideal.ieee, -EReal.coe_mul]; norm_num

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

theorem tanh_real (x : EReal) : ∃ r : ℝ, Ideal.tanh x = (r : EReal) := by
  induction x using EReal.rec with
  | bot => exact ⟨-1, by simp⟩
  | coe r => exact ⟨_, Ideal.tanh_coe r⟩
  | top => exact ⟨1, by simp⟩

/-- Both gates and the candidate are real whatever they are applied to, so the update is real when the node's own feature is. -/
theorem gru_real (agg x : A2 50000 128) (Wih : A2 128 384) (bih : A1 384) (Whh : A2 128 384) (bhh : A1 384)
    (p : Fin 50000) (q : Fin 128) (hx : ∃ r : ℝ, x (ix2 p q) = (r : EReal)) :
    ∃ r : ℝ, gru agg x Wih bih Whh bhh p q = (r : EReal) := by
  obtain ⟨xr, hxr⟩ := hx
  unfold gru
  dsimp only
  obtain ⟨z, hz⟩ := logistic_real _
  obtain ⟨n, hn⟩ := tanh_real _
  rw [hz, hn, hxr, one_eq]
  exact ⟨(1 - z) * n + z * xr, by push_cast; rfl⟩

/-- On real data the mean of the squared deviations is the mean of the squares less the squared mean. -/
theorem var_identity (H : Fin 50000 → EReal) (hH : ∀ p, ∃ r : ℝ, H p = (r : EReal)) (c d : EReal)
    (hc : c = ((50000 : ℝ) : EReal)) (hd : d = ((50000 : ℝ) : EReal)) :
    Ideal.div (∑ p, (H p - Ideal.div (∑ p, H p) c) * (H p - Ideal.div (∑ p, H p) c)) d
      = Ideal.div (∑ p, H p * H p) c - Ideal.div (∑ p, H p) c * Ideal.div (∑ p, H p) c := by
  choose r hr using hH
  have hne : (50000 : ℝ) ≠ 0 := by norm_num
  subst hc hd
  simp only [hr, Ideal.div_coe hne]
  rw [← coe_sum]
  simp only [← EReal.coe_mul, ← EReal.coe_sub]
  rw [← coe_sum, ← coe_sum]
  simp only [← EReal.coe_mul, ← EReal.coe_sub]
  congr 1
  have h1 : ∀ p, (r p - (∑ p, r p) * (1 / 50000)) * (r p - (∑ p, r p) * (1 / 50000))
      = r p * r p - 2 * ((∑ p, r p) * (1 / 50000)) * r p + ((∑ p, r p) * (1 / 50000)) * ((∑ p, r p) * (1 / 50000)) := fun p => by ring
  simp only [h1]
  rw [Finset.sum_add_distrib, Finset.sum_sub_distrib, ← Finset.mul_sum, Finset.sum_const, Finset.card_univ, Fintype.card_fin,
    nsmul_eq_mul]
  push_cast
  ring

end Cert.Alg

end
-- ==== Proof.Alg.RefBn.lean ====
import proofs.«415257_j29506425324200_3_alg».proof.ReferenceIdeal
import proofs.«415257_j29506425324200_3_alg».proof.Proof.Alg.Var
import Idealize.ShloMosaic.Lib.KernelVsHost
import Idealize.ShloMosaic.Lib.IdealHost

noncomputable section

namespace Cert.Alg.Ref

open Idealize.ShloMosaic Idealize.ShloMosaic.ValueIdx
open Cert.ReferenceIdeal Cert.ReferenceIdeal.Facts₀

variable [Cert.ReferenceIdeal.Facts]

def mean (h : FVec Ideal S50000x128 .f32) (q : Fin 128) : EReal :=
  Ideal.div (∑ p : Fin 50000, h (ix2 p q)) (Ideal.ofBits .f32 0x47435000#32)

def varR (h : FVec Ideal S50000x128 .f32) (q : Fin 128) : EReal :=
  Ideal.div (∑ p : Fin 50000, (h (ix2 p q) - mean h q) * (h (ix2 p q) - mean h q)) (Ideal.ofBits .f32 0x47435000#32)

theorem colsum_apply (h : FVec Ideal S50000x128 .f32) (q : Fin 128) :
    Host.reduceAdd h (constant S_ .f32 0x00000000#32) reducesTo_S50000x128_S128_d0 h_S_ (ix1 q)
      = ∑ p : Fin 50000, h (ix2 p q) := by
  rw [hostReduceAdd_apply, Ideal.hostReduceAdd_single reducesTo_S50000x128_S128_d0 (by decide), constant_apply,
    Ideal.ofBits_zero_f32, zero_add]
  exact Finset.sum_congr rfl fun k _ => congrArg h (funext fun | ⟨0, _⟩ => rfl | ⟨1, _⟩ => rfl)

theorem row_apply (v : FVec Ideal S128 .f32) (r : Fin 1) (q : Fin 128) :
    broadcastInDim S1x128 ![1] bcast_S128_S1x128_1 v (ix2 r q) = v (ix1 q) :=
  broadcastInDim_apply _ _ _ (ix2 r q) (ix1 q) fun | ⟨0, _⟩ => rfl

theorem vecRows_apply (v : FVec Ideal S128 .f32) (p : Fin 50000) (q : Fin 128) :
    broadcastInDim S50000x128 ![0, 1] bcast_S1x128_S50000x128_0_1 (broadcastInDim S1x128 ![1] bcast_S128_S1x128_1 v)
      (ix2 p q) = v (ix1 q) := by
  rw [broadcastInDim_oneRow_apply, row_apply]

def refMean (h : FVec Ideal S50000x128 .f32) : FVec Ideal S128 .f32 :=
  Host.divf (Host.reduceAdd h (constant S_ .f32 0x00000000#32) reducesTo_S50000x128_S128_d0 h_S_)
    (broadcastInDim S128 ![] bcast_S_S128 (constant S_ .f32 0x47435000#32))

theorem refMean_apply (h : FVec Ideal S50000x128 .f32) (q : Fin 128) : refMean h (ix1 q) = mean h q :=
  congrArg (Ideal.div · _) (colsum_apply h q)

def refMeanRow (h : FVec Ideal S50000x128 .f32) : FVec Ideal S1x128 .f32 :=
  Host.divf
    (broadcastInDim S1x128 ![1] bcast_S128_S1x128_1
      (Host.reduceAdd h (constant S_ .f32 0x00000000#32) reducesTo_S50000x128_S128_d0 h_S_))
    (broadcastInDim S1x128 ![] bcast_S_S1x128 (constant S_ .f32 0x47435000#32))

theorem refMeanRow_apply (h : FVec Ideal S50000x128 .f32) (r : Fin 1) (q : Fin 128) :
    refMeanRow h (ix2 r q) = mean h q :=
  congrArg (Ideal.div · _) ((row_apply _ r q).trans (colsum_apply h q))

def refSq (h : FVec Ideal S50000x128 .f32) : FVec Ideal S50000x128 .f32 :=
  let v5 := subf h (broadcastInDim S50000x128 ![0, 1] bcast_S1x128_S50000x128_0_1 (refMeanRow h))
  mulf v5 v5

theorem refSq_apply (h : FVec Ideal S50000x128 .f32) (p : Fin 50000) (q : Fin 128) :
    refSq h (ix2 p q) = (h (ix2 p q) - mean h q) * (h (ix2 p q) - mean h q) := by
  simp only [refSq, mulf, subf, Ideal.mulf_def, Ideal.subf_def]
  rw [broadcastInDim_oneRow_apply, refMeanRow_apply]

def refN : FVec Ideal S_ .f32 :=
  subf (constant S_ .f32 0x47435000#32) (sitofp .f32 (constantI S_ 32 0#32))

theorem refN_apply (i : S_.Idx) : refN i = Ideal.ofBits .f32 0x47435000#32 := by
  show Ideal.ofBits .f32 0x47435000#32 - (((0#32 : BitVec 32).toInt : ℝ) : EReal) = _
  simp

/-- `50000 - 0 > 0`, so the guarded quotient is the quotient. -/
theorem guard_true (i : S_.Idx) : cmpf .ogt refN (constant S_ .f32 0x00000000#32) i = 1#1 := by
  show FloatOps.cmpf .ogt (refN i) (Ideal.ofBits .f32 0x00000000#32) = 1#1
  rw [refN_apply, Ideal.cmpf_def, Ideal.ofBits_zero_f32, ofBits_50000]
  have h : (0 : EReal) < ((50000 : ℝ) : EReal) := EReal.coe_pos.mpr (by norm_num)
  simp [Ideal.cmp, h]

def refVar (h : FVec Ideal S50000x128 .f32) : FVec Ideal S128 .f32 :=
  let v11 := Host.divf
    (Host.reduceAdd (refSq h) (constant S_ .f32 0x00000000#32) reducesTo_S50000x128_S128_d0 h_S_)
    (broadcastInDim S128 ![] bcast_S_S128 refN)
  let v12 := cmpf .ogt refN (constant S_ .f32 0x00000000#32)
  select (broadcastInDim S128 ![] bcast_S_S128 v12) v11
    (broadcastInDim S128 ![] bcast_S_S128 (id (constant S_ .f32 0x7FC00000#32)))

theorem refVar_apply (h : FVec Ideal S50000x128 .f32) (q : Fin 128) : refVar h (ix1 q) = varR h q := by
  show Scalar.select (cmpf .ogt refN (constant S_ .f32 0x00000000#32) _)
    (Ideal.div (Host.reduceAdd (refSq h) (constant S_ .f32 0x00000000#32) reducesTo_S50000x128_S128_d0 h_S_ (ix1 q))
      (refN _)) _ = _
  rw [guard_true, select_one, colsum_apply, refN_apply]
  simp only [refSq_apply]
  rfl

theorem eps_apply (q : Fin 128) :
    broadcastInDim S128 ![] bcast_S_S128 (constant (F := Ideal) S_ .f32 0x3727C5AC#32) (ix1 q) = Cert.Spec.eps := rfl

def refOut (h : FVec Ideal S50000x128 .f32) (g b : FVec Ideal S128 .f32) : FVec Ideal S50000x128 .f32 :=
  let v85 := subf h (broadcastInDim S50000x128 ![0, 1] bcast_S1x128_S50000x128_0_1
    (broadcastInDim S1x128 ![1] bcast_S128_S1x128_1 (refMean h)))
  let v88 := mulf (broadcastInDim S50000x128 ![0, 1] bcast_S1x128_S50000x128_0_1
    (broadcastInDim S1x128 ![1] bcast_S128_S1x128_1 g)) v85
  let v91 := Host.rsqrt (addf (refVar h) (broadcastInDim S128 ![] bcast_S_S128 (constant S_ .f32 0x3727C5AC#32)))
  let v94 := mulf v88 (broadcastInDim S50000x128 ![0, 1] bcast_S1x128_S50000x128_0_1
    (broadcastInDim S1x128 ![1] bcast_S128_S1x128_1 v91))
  addf v94 (broadcastInDim S50000x128 ![0, 1] bcast_S1x128_S50000x128_0_1
    (broadcastInDim S1x128 ![1] bcast_S128_S1x128_1 b))

/-- Entry `(p, q)` is `bn` over column `q`'s mean and variance. -/
theorem refOut_apply (h : FVec Ideal S50000x128 .f32) (g b : FVec Ideal S128 .f32) (p : Fin 50000) (q : Fin 128) :
    refOut h g b (ix2 p q)
      = Cert.Spec.bn (g (ix1 q)) (h (ix2 p q)) (mean h q) (varR h q) (b (ix1 q)) := by
  simp only [refOut, Cert.Spec.bn, addf, mulf, subf, Ideal.addf_def, Ideal.mulf_def, Ideal.subf_def]
  rw [vecRows_apply, vecRows_apply, vecRows_apply, vecRows_apply]
  simp only [Host.rsqrt, addf, Ideal.hostUnary_rsqrt_def, Ideal.addf_def]
  rw [refMean_apply, refVar_apply, eps_apply]

end Cert.Alg.Ref

end
-- ==== Proof.RI.Val.lean ====
import proofs.«415257_j29506425324200_3_alg».proof.Proof.RI.Run
import proofs.«415257_j29506425324200_3_alg».proof.Proof.Alg.RefGru
import proofs.«415257_j29506425324200_3_alg».proof.Proof.Alg.RefBn
import proofs.«415257_j29506425324200_3_alg».proof.Proof.Alg.Msg

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Alg.Ref Cert.Alg.Msg

local notation "𝕍" => Valuation τ sig (Elt Ideal)

abbrev opsA : List (HloOp τ sig (Elt Ideal)) := (ops_part0 (F := Ideal)).take 48

abbrev opsB : List (HloOp τ sig (Elt Ideal)) := (ops_part0 (F := Ideal)).drop 48 ++ (ops_part1a (F := Ideal)).take 31

abbrev opsC : List (HloOp τ sig (Elt Ideal)) := (ops_part1a (F := Ideal)).drop 31 ++ (ops_call0 ++ ops_part1b)

theorem ops_split : (ops : List (HloOp τ sig (Elt Ideal))) = opsA ++ (opsB ++ opsC) := by
  show ops_part0 ++ (ops_part1a ++ (ops_call0 ++ ops_part1b))
      = ops_part0.take 48 ++ ((ops_part0.drop 48 ++ ops_part1a.take 31) ++ (ops_part1a.drop 31 ++ (ops_call0 ++ ops_part1b)))
  conv_lhs => rw [← List.take_append_drop 48 (ops_part0 (F := Ideal)), ← List.take_append_drop 31 (ops_part1a (F := Ideal))]
  simp only [List.append_assoc]

theorem A_keep (W : 𝕍) (r : Ref sig .tc) (h : r ∉ ops_W) : after opsA W (Proc.devRef .tc r) = W (Proc.devRef .tc r) :=
  after_of_writes_sub opsA W (List.forall_iff_forall_mem.mpr fun op h =>
    List.forall_iff_forall_mem.mp ops_part0_writes op (List.mem_of_mem_take h)) h

theorem B_keep (W : 𝕍) (r : Ref sig .tc) (h : r ∉ ops_W) : after opsB W (Proc.devRef .tc r) = W (Proc.devRef .tc r) :=
  after_of_writes_sub opsB W (List.forall_iff_forall_mem.mpr fun op h => (List.mem_append.mp h).elim
    (fun h => List.forall_iff_forall_mem.mp ops_part0_writes op (List.mem_of_mem_drop h))
    (fun h => List.forall_iff_forall_mem.mp ops_part1a_writes op (List.mem_of_mem_take h))) h

def srcOf (e : IVec S2x800000 32) : IVec S800000 32 :=
  shapeCast S800000 (extractStridedSlice S1x800000 ![0, 0] e slices_S2x800000_S1x800000_0_0) shapeCasts_S1x800000_S800000

def dstOf (e : IVec S2x800000 32) : IVec S800000 32 :=
  shapeCast S800000 (extractStridedSlice S1x800000 ![1, 0] e slices_S2x800000_S1x800000_1_0) shapeCasts_S1x800000_S800000

def aggOf (x : FVec Ideal S50000x128 .f32) (e : IVec S2x800000 32) (Wmsg : FVec Ideal S128x128 .f32)
    (bmsg : FVec Ideal S128 .f32) (Watt : FVec Ideal S256x1 .f32) (batt : FVec Ideal S1 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstOf e))
    (msgR x (srcOf e) (dstOf e) Wmsg bmsg Watt batt)

set_option maxRecDepth 8192 in
set_option maxHeartbeats 1000000 in
theorem A_v40 (W : 𝕍) : after opsA W (Proc.devRef .tc main_v40)
    = aggOf (W (Proc.devRef .tc main_arg0)) (W (Proc.devRef .tc main_arg1)) (W (Proc.devRef .tc main_arg2)) (W (Proc.devRef .tc main_arg3)) (W (Proc.devRef .tc main_arg4)) (W (Proc.devRef .tc main_arg5)) := by
  simp only [opsA, ops_part0, List.take_succ_cons, List.take_zero]
  after_results_simp
  rfl

set_option maxRecDepth 8192 in
set_option maxHeartbeats 1000000 in
theorem B_v78 (W : 𝕍) : after opsB W (Proc.devRef .tc main_v78)
    = refH (W (Proc.devRef .tc main_v40)) (W (Proc.devRef .tc main_arg0)) (W (Proc.devRef .tc main_arg6)) (W (Proc.devRef .tc main_arg7)) (W (Proc.devRef .tc main_arg8)) (W (Proc.devRef .tc main_arg9)) := by
  simp only [opsB, ops_part0, ops_part1a, List.drop_succ_cons, List.drop_zero, List.take_succ_cons, List.take_zero,
    List.cons_append, List.nil_append]
  after_results_simp
  rfl

set_option maxRecDepth 8192 in
set_option maxHeartbeats 1000000 in
theorem C_v97 (W : 𝕍) : after opsC W (Proc.devRef .tc main_v97)
    = refOut (W (Proc.devRef .tc main_v78)) (W (Proc.devRef .tc main_arg10)) (W (Proc.devRef .tc main_arg11)) := by
  simp only [opsC, ops_part1a, ops_call0, ops_part1b, List.drop_succ_cons, List.drop_zero, List.cons_append, List.nil_append]
  after_results_simp
  rfl

variable (m : (ℓ : Loc nD τ sig) → Buf (Elt Ideal) ℓ)

def v1R (c : Dev nD) : IVec S800000 32 := srcOf (m ((c.tc : Thread nD τ).loc main_arg1))

def v3R (c : Dev nD) : IVec S800000 32 := dstOf (m ((c.tc : Thread nD τ).loc main_arg1))

def aggR (c : Dev nD) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (v3R m c))
    (Cert.Alg.Msg.msgR (m ((c.tc : Thread nD τ).loc main_arg0)) (v1R m c) (v3R m c) (m ((c.tc : Thread nD τ).loc main_arg2)) (m ((c.tc : Thread nD τ).loc main_arg3))
      (m ((c.tc : Thread nD τ).loc main_arg4)) (m ((c.tc : Thread nD τ).loc main_arg5)))

set_option maxRecDepth 8192 in
/-- The result buffer after the whole line, as one term of the twelve arguments. -/
theorem ref_val (c : Dev nD) :
    after ops (launchContents m c) (Proc.devRef .tc main_v97)
      = refOut
          (refH (aggR m c) (m ((c.tc : Thread nD τ).loc main_arg0)) (m ((c.tc : Thread nD τ).loc main_arg6)) (m ((c.tc : Thread nD τ).loc main_arg7))
            (m ((c.tc : Thread nD τ).loc main_arg8)) (m ((c.tc : Thread nD τ).loc main_arg9)))
          (m ((c.tc : Thread nD τ).loc main_arg10)) (m ((c.tc : Thread nD τ).loc main_arg11)) := by
  rw [ops_split, after_append, after_append, C_v97, B_v78,
    B_keep _ main_arg10 (by decide), B_keep _ main_arg11 (by decide), A_v40,
    A_keep _ main_arg0 (by decide), A_keep _ main_arg6 (by decide), A_keep _ main_arg7 (by decide),
    A_keep _ main_arg8 (by decide), A_keep _ main_arg9 (by decide), A_keep _ main_arg10 (by decide),
    A_keep _ main_arg11 (by decide)]
  rfl

end Cert.ReferenceIdeal.RefRun

end
-- ==== Proof.Alg.Bridge.lean ====
import proofs.«415257_j29506425324200_3_alg».proof.Proof.Alg.Var
import proofs.«415257_j29506425324200_3_alg».proof.Proof.Alg.RefBn

noncomputable section

namespace Cert.Alg

open Idealize.ShloMosaic Idealize.ShloMosaic.ValueIdx Cert.Spec Cert.ReferenceIdeal

variable [Cert.ReferenceIdeal.Facts]

/-- The two normalisations differ only in the formula for the variance, and the two formulas agree on real data. -/
theorem bn_eq (g b : EReal) (Hf : Fin 50000 → Fin 128 → EReal) (hreal : ∀ p q, ∃ r : ℝ, Hf p q = (r : EReal))
    (hR : FVec Ideal S50000x128 .f32) (hHR : ∀ p q, hR (ix2 p q) = Hf p q) (p : Fin 50000) (q : Fin 128) :
    bn g (Hf p q) (Ideal.div (∑ p : Fin 50000, Hf p q) (Ideal.ofBits .f32 0x47435000#32))
        (Ideal.div (∑ p : Fin 50000, Hf p q * Hf p q) (Ideal.ofBits .f32 0x47435000#32)
          - Ideal.div (∑ p : Fin 50000, Hf p q) (Ideal.ofBits .f32 0x47435000#32) * Ideal.div (∑ p : Fin 50000, Hf p q) (Ideal.ofBits .f32 0x47435000#32)) b
      = bn g (hR (ix2 p q)) (Ref.mean hR q) (Ref.varR hR q) b := by
  unfold Ref.mean Ref.varR
  simp only [Ref.mean, hHR]
  rw [var_identity (fun p => Hf p q) (fun p => hreal p q) _ _ ofBits_50000 ofBits_50000]

end Cert.Alg

end
-- ==== Proof.Alg.Finite.lean ====
import proofs.«415257_j29506425324200_3_alg».proof.Pre_finite_inputs
import Idealize.ShloMosaic.Lib.ReduceAll
import Idealize.ShloMosaic.PureOps.Ideal

noncomputable section

namespace Cert.Alg

open Idealize.ShloMosaic Cert.Pre_finite_inputs

instance subsingleton_S_ : Subsingleton S_.Idx := ⟨fun a b => funext fun d => d.elim0⟩

theorem ofBits_inf : Ideal.ofBits .f32 0x7F800000#32 = (⊤ : EReal) := by
  simp [Ideal.ofBits, Ideal.ieee]

/-- `max x (-x) < ⊤` excludes `⊥` and `⊤`. -/
theorem real_of_abs_lt_inf (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

theorem x_finite [Facts] (a0 : FVec Ideal S50000x128 .f32) (a1 : IVec S2x800000 32) (a2 : FVec Ideal S128x128 .f32)
    (a3 : FVec Ideal S128 .f32) (a4 : FVec Ideal S256x1 .f32) (a5 : FVec Ideal S1 .f32) (a6 : FVec Ideal S384x128 .f32)
    (a7 : FVec Ideal S384 .f32) (a8 : FVec Ideal S384x128 .f32) (a9 : FVec Ideal S384 .f32) (a10 : FVec Ideal S128 .f32)
    (a11 : FVec Ideal S128 .f32)
    (h : Cert.Pre_finite_inputs.fn (F := Ideal) a0 a1 a2 a3 a4 a5 a6 a7 a8 a9 a10 a11 = fun _ => 1#1) :
    ∀ i, ∃ r : ℝ, a0 i = (r : EReal) := by
  intro i
  have h0 := congrFun h (fun d => d.elim0)
  dsimp only [fn, fn_part1, fn_part2, fn_part3, andi] at h0
  iterate 10 replace h0 := (IntOp.andi_eq_one.1 h0).1
  have hi := Host.reduce_andi_all _ _ _ _ _ h0 i
  exact real_of_abs_lt_inf (a0 i) hi

end Cert.Alg

end
-- ==== Proof.Algebraic.lean ====
import proofs.«415257_j29506425324200_3_alg».proof.Defs
import proofs.«415257_j29506425324200_3_alg».proof.Proof.Gen.KernelIdeal
import proofs.«415257_j29506425324200_3_alg».proof.Proof.Gen.ReferenceIdeal
import proofs.«415257_j29506425324200_3_alg».proof.Proof.Gen.Pre_finite_inputs
import proofs.«415257_j29506425324200_3_alg».proof.Proof.KI.Out
import proofs.«415257_j29506425324200_3_alg».proof.Proof.RI.Val
import proofs.«415257_j29506425324200_3_alg».proof.Proof.Alg.Bridge
import proofs.«415257_j29506425324200_3_alg».proof.Proof.Alg.Finite
import proofs.«415257_j29506425324200_3_alg».proof.Proof.Alg.Msg

noncomputable section

namespace Cert.Proof

open Idealize.ShloMosaic Idealize.ShloMosaic.TcCoe Idealize.ShloMosaic.ValueIdx Idealize.SL.Sem Cert.Spec
open Cert.KernelIdeal (main_arg0 main_arg2 main_arg3 main_arg4 main_arg5)

/-- Both programs run and leave their arguments alone. The reference's result is the kernel's: equal messages
    (the message transform commutes with the gather of source rows) scattered over equal targets give equal
    aggregates, the update is one function of equal arguments, and the two variance formulas agree because
    every updated feature is real, the node features being finite. -/
theorem algebraic : Cert.algebraic_KernelIdeal_ReferenceIdeal := by
  intro m ρ m' ρ' hpre hagree
  refine ⟨fun c => Cert.KernelIdeal.Fr.W6 m ρ c (Proc.devRef .tc Cert.KernelIdeal.main_v64), Cert.KernelIdeal.Fr.run_val m ρ,
    (θ_run Cert.ReferenceIdeal.defs _ _).mono (fun r h c => ⟨(h c).1.trans ?_, (h c).2⟩) (Cert.ReferenceIdeal.RefRun.run m' ρ')⟩
  have hx : ∀ i, ∃ r : ℝ, m ((c.tc : Thread Cert.KernelIdeal.nD Cert.KernelIdeal.τ).loc main_arg0) i = (r : EReal) :=
    Cert.Alg.x_finite _ _ _ _ _ _ _ _ _ _ _ _ (hpre c)
  obtain ⟨h0, h1, h2, h3, h4, h5, h6, h7, h8, h9, h10, h11⟩ := hagree c
  have hagg : (Cert.ReferenceIdeal.RefRun.aggR m' c : Cert.ReferenceIdeal.S50000x128.Idx → EReal)
      = (Cert.KernelIdeal.Fr.V3 m ρ c Cert.KernelIdeal.main_v54 : Cert.KernelIdeal.S50000x128.Idx → EReal) := by
    rw [Cert.KernelIdeal.Val.V3_main_v54 m ρ c,
      Cert.Alg.Msg.msgK_eq_msgR (m ((c.tc : Thread Cert.KernelIdeal.nD Cert.KernelIdeal.τ).loc main_arg0)) (Cert.KernelIdeal.Val.srcK m c) (Cert.KernelIdeal.Val.dstK m c)
        (m ((c.tc : Thread Cert.KernelIdeal.nD Cert.KernelIdeal.τ).loc main_arg2)) (m ((c.tc : Thread Cert.KernelIdeal.nD Cert.KernelIdeal.τ).loc main_arg3))
        (m ((c.tc : Thread Cert.KernelIdeal.nD Cert.KernelIdeal.τ).loc main_arg4)) (m ((c.tc : Thread Cert.KernelIdeal.nD Cert.KernelIdeal.τ).loc main_arg5))
        _ (Cert.KernelIdeal.Val.comb_apply m ρ c)]
    unfold Cert.ReferenceIdeal.RefRun.aggR Cert.ReferenceIdeal.RefRun.v1R Cert.ReferenceIdeal.RefRun.v3R
    rw [h0, h1, h2, h3, h4, h5]
    rfl
  beta_reduce
  funext i
  obtain ⟨p, q, rfl⟩ : ∃ (p : Fin 50000) (q : Fin 128), i = ix2 p q := ⟨i 0, i 1, eq_ix2 i⟩
  rw [Cert.ReferenceIdeal.RefRun.ref_val m' c, Cert.Alg.Ref.refOut_apply, Cert.KernelIdeal.Val.kernel_out m ρ c p q, h10, h11]
  refine (Cert.Alg.bn_eq _ _ (Cert.KernelIdeal.Val.Hk m ρ c)
    (fun p q => Cert.Alg.gru_real _ _ _ _ _ _ p q (hx (ix2 p q))) _ (fun p q => ?_) p q).symm
  rw [Cert.Alg.Ref.refH_apply, hagg, h0, h6, h7, h8, h9]
  rfl

end Cert.Proof

end
-- ==== Proof.lean ====
/- A graph-network layer (gated edge messages summed into their targets, a recurrent update of every node, a
   batch normalisation over the nodes) computed by three tiled kernels agrees with its whole-array form. -/
import proofs.«415257_j29506425324200_3_alg».proof.Defs
import proofs.«415257_j29506425324200_3_alg».proof.Proof.Gen.Kernel
import proofs.«415257_j29506425324200_3_alg».proof.Proof.Gen.KernelIdeal
import proofs.«415257_j29506425324200_3_alg».proof.Proof.Gen.ReferenceIdeal
import proofs.«415257_j29506425324200_3_alg».proof.Proof.Gen.Pre_finite_inputs
import proofs.«415257_j29506425324200_3_alg».proof.Proof.K.Run
import proofs.«415257_j29506425324200_3_alg».proof.Proof.KI.Run
import proofs.«415257_j29506425324200_3_alg».proof.Proof.RI.Run
import proofs.«415257_j29506425324200_3_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame (F := Bits) m ρ,
    fun m ρ _ => Cert.KernelIdeal.Fr.frame (F := Ideal) m ρ,
    fun m ρ _ => Cert.ReferenceIdeal.RefRun.frame (F := Ideal) m ρ,
    trivial,
    Cert.Proof.algebraic⟩

end Cert.Proof

end
